-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v21_1)) (v1 : (c : Dev Cert.KernelIdeal.nD) → Buf (Elt Ideal) ((c.tc : Thread Cert.KernelIdeal.nD Cert.KernelIdeal.τ).loc Cert.KernelIdeal.main_v21_0)) (v2 : (c : Dev Cert.KernelIdeal.nD) → Buf (Elt Ideal) ((c.tc : Thread Cert.KernelIdeal.nD Cert.KernelIdeal.τ).loc Cert.KernelIdeal.main_v20_1)) (v3 : (c : Dev Cert.KernelIdeal.nD) → Buf (Elt Ideal) ((c.tc : Thread Cert.KernelIdeal.nD Cert.KernelIdeal.τ).loc Cert.KernelIdeal.main_v20_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_1) = v0 c
          ∧ r.2.mem ((c.tc : Thread Cert.KernelIdeal.nD Cert.KernelIdeal.τ).loc Cert.KernelIdeal.main_v21_0) = v1 c
          ∧ r.2.mem ((c.tc : Thread Cert.KernelIdeal.nD Cert.KernelIdeal.τ).loc Cert.KernelIdeal.main_v20_1) = v2 c
          ∧ r.2.mem ((c.tc : Thread Cert.KernelIdeal.nD Cert.KernelIdeal.τ).loc Cert.KernelIdeal.main_v20_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024x1024 .f32) (main_arg13 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x1024 .f32) (main_arg1 : FVec F S8192x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S8192x8192 : Shape := ⟨2, ![8192, 8192]⟩
abbrev S512x1024 : Shape := ⟨2, ![512, 1024]⟩
abbrev S1024x512 : Shape := ⟨2, ![1024, 512]⟩

abbrev nBuf : Space → Nat
  | .hbm => 38
  | .vmem => 58
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S8192x1024, .bf16⟩
  | .hbm, ⟨15, _⟩ => ⟨S8192x1024, .bf16⟩
  | .hbm, ⟨16, _⟩ => ⟨S1024x1024, .bf16⟩
  | .hbm, ⟨17, _⟩ => ⟨S1x1024, .f32⟩
  | .hbm, ⟨18, _⟩ => ⟨S8192x1024, .bf16⟩
  | .hbm, ⟨19, _⟩ => ⟨S1024x1024, .bf16⟩
  | .hbm, ⟨20, _⟩ => ⟨S1x1024, .f32⟩
  | .hbm, ⟨21, _⟩ => ⟨S8192x1024, .bf16⟩
  | .hbm, ⟨22, _⟩ => ⟨S1024x1024, .bf16⟩
  | .hbm, ⟨23, _⟩ => ⟨S1x1024, .f32⟩
  | .hbm, ⟨24, _⟩ => ⟨S8192x1024, .bf16⟩
  | .hbm, ⟨25, _⟩ => ⟨S1024x1024, .bf16⟩
  | .hbm, ⟨26, _⟩ => ⟨S1x1024, .f32⟩
  | .hbm, ⟨27, _⟩ => ⟨S8192x1024, .bf16⟩
  | .hbm, ⟨28, _⟩ => ⟨S1024x1024, .bf16⟩
  | .hbm, ⟨29, _⟩ => ⟨S1x1024, .f32⟩
  | .hbm, ⟨30, _⟩ => ⟨S8192x1024, .bf16⟩
  | .hbm, ⟨31, _⟩ => ⟨S1024x1024, .bf16⟩
  | .hbm, ⟨32, _⟩ => ⟨S1x1024, .f32⟩
  | .hbm, ⟨33, _⟩ => ⟨S8192x1024, .bf16⟩
  | .hbm, ⟨34, _⟩ => ⟨S8192x8192, .f32⟩
  | .hbm, ⟨35, _⟩ => ⟨S8192x1024, .f32⟩
  | .hbm, ⟨36, _⟩ => ⟨S8192x8192, .f32⟩
  | .hbm, ⟨37, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1x1024, .f32⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1x1024, .f32⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1024x1024, .bf16⟩
  | .local _ .vmem, ⟨32, _⟩ => ⟨S1024x1024, .bf16⟩
  | .local _ .vmem, ⟨33, _⟩ => ⟨S1x1024, .f32⟩
  | .local _ .vmem, ⟨34, _⟩ => ⟨S1024x1024, .bf16⟩
  | .local _ .vmem, ⟨35, _⟩ => ⟨S1024x1024, .bf16⟩
  | .local _ .vmem, ⟨36, _⟩ => ⟨S1024x1024, .bf16⟩
  | .local _ .vmem, ⟨37, _⟩ => ⟨S1024x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | .local _ .vmem, ⟨42, _⟩ => ⟨S1024x512, .f32⟩
  | .local _ .vmem, ⟨43, _⟩ => ⟨S1024x512, .f32⟩
  | .local _ .vmem, ⟨44, _⟩ => ⟨S1024x1024, .f32⟩
  | .local _ .vmem, ⟨45, _⟩ => ⟨S1024x1024, .f32⟩
  | .local _ .vmem, ⟨46, _⟩ => ⟨S1024x1024, .f32⟩
  | .local _ .vmem, ⟨47, _⟩ => ⟨S1024x1024, .bf16⟩
  | .local _ .vmem, ⟨48, _⟩ => ⟨S1024x1024, .bf16⟩
  | .local _ .vmem, ⟨49, _⟩ => ⟨S512x1024, .bf16⟩
  | .local _ .vmem, ⟨50, _⟩ => ⟨S512x1024, .bf16⟩
  | .local _ .vmem, ⟨51, _⟩ => ⟨S512x1024, .bf16⟩
  | .local _ .vmem, ⟨52, _⟩ => ⟨S512x1024, .bf16⟩
  | .local _ .vmem, ⟨53, _⟩ => ⟨S1024x512, .f32⟩
  | .local _ .vmem, ⟨54, _⟩ => ⟨S1024x512, .f32⟩
  | .local _ .vmem, ⟨55, _⟩ => ⟨S1024x1024, .f32⟩
  | .local _ .vmem, ⟨56, _⟩ => ⟨S1024x1024, .f32⟩
  | .local _ .vmem, ⟨57, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v21_0 : Ref sig .tc := ⟨.hbm, 36, rfl⟩
abbrev main_v21_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc6_stg3_0 : Ref sig .tc := ⟨.vmem, 42, rfl⟩
abbrev cc6_stg3_1 : Ref sig .tc := ⟨.vmem, 43, rfl⟩
abbrev cc6_stg4_0 : Ref sig .tc := ⟨.vmem, 44, rfl⟩
abbrev cc6_stg4_1 : Ref sig .tc := ⟨.vmem, 45, rfl⟩
abbrev cc6_scratch0 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg3_1 : Ref sig .tc := ⟨.vmem, 54, rfl⟩
abbrev cc7_stg4_0 : Ref sig .tc := ⟨.vmem, 55, rfl⟩
abbrev cc7_stg4_1 : Ref sig .tc := ⟨.vmem, 56, rfl⟩
abbrev cc7_scratch0 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc6_sem3_0 : DmaSem sig := 42
abbrev cc6_sem3_1 : DmaSem sig := 43
abbrev cc6_sem4_0 : DmaSem sig := 44
abbrev cc6_sem4_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem2_1 : DmaSem sig := 51
abbrev cc7_sem3_0 : DmaSem sig := 52
abbrev cc7_sem3_1 : DmaSem sig := 53
abbrev cc7_sem4_0 : DmaSem sig := 54
abbrev cc7_sem4_1 : DmaSem sig := 55

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1024x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨2, ![8, 16], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S512x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S512x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S1024x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev stage6_4 : Fin 2 → Memref sig .tc .vmem S1024x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false]

abbrev grid7 : Pipeline.Grid := ⟨2, ![8, 16], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S512x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S512x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S1024x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev stage7_4 : Fin 2 → Memref sig .tc .vmem S1024x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false]

class Facts₀ : Prop where
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  dot_S1024x1024_S1024x1024_S1024x1024_1_0_0_1_n_n_wf : DotDims.WF S1024x1024 S1024x1024 S1024x1024 [1] [0] [0] [1] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .bf16 = 32 ∨ (Rect.block (s := S8192x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .bf16 = 32 ∨ (Rect.block (s := S8192x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x1024.size a
  hwx3_0 : ∀ i : grid3.Coords, EltTy.bits .bf16 = 32 ∨ (Rect.block (s := S8192x1024) S1024x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S1024x1024.size a
  hwx3_1 : ∀ i : grid3.Coords, EltTy.bits .bf16 = 32 ∨ (Rect.block (s := S1024x1024) S1024x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S8192x1024.size a
  hwx3_3 : ∀ i : grid3.Coords, EltTy.bits .bf16 = 32 ∨ (Rect.block (s := S8192x1024) S1024x1024.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x1024.size a
  hwx4_0 : ∀ i : grid4.Coords, EltTy.bits .bf16 = 32 ∨ (Rect.block (s := S8192x1024) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S8192x1024.size a
  hwx4_3 : ∀ i : grid4.Coords, EltTy.bits .bf16 = 32 ∨ (Rect.block (s := S8192x1024) S1024x1024.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S8192x1024.size a
  hwx5_0 : ∀ i : grid5.Coords, EltTy.bits .bf16 = 32 ∨ (Rect.block (s := S8192x1024) S1024x1024.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1024x1024.size a ≤ S1024x1024.size a
  hwx5_1 : ∀ i : grid5.Coords, EltTy.bits .bf16 = 32 ∨ (Rect.block (s := S1024x1024) S1024x1024.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x1024.size a
  hwx5_2 : ∀ i : grid5.Coords, EltTy.bits .f32 = 32 ∨ (Rect.block (s := S1x1024) S1x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x1024.size a ≤ S8192x1024.size a
  hwx5_3 : ∀ i : grid5.Coords, EltTy.bits .bf16 = 32 ∨ (Rect.block (s := S8192x1024) S1024x1024.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x1024.size a ≤ S8192x1024.size a
  hwx6_0 : ∀ i : grid6.Coords, EltTy.bits .bf16 = 32 ∨ (Rect.block (s := S8192x1024) S1024x1024.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S512x1024.size a ≤ S8192x1024.size a
  hwx6_1 : ∀ i : grid6.Coords, EltTy.bits .bf16 = 32 ∨ (Rect.block (s := S8192x1024) S512x1024.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S512x1024.size a ≤ S8192x1024.size a
  hwx6_2 : ∀ i : grid6.Coords, EltTy.bits .bf16 = 32 ∨ (Rect.block (s := S8192x1024) S512x1024.size (cc6_transform_2 i) (hinb6_2 i)).WholeWords (EltTy.packing .bf16)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x512.size a ≤ S8192x8192.size a
  hwx6_3 : ∀ i : grid6.Coords, EltTy.bits .f32 = 32 ∨ (Rect.block (s := S8192x8192) S1024x512.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1024x1024.size a ≤ S8192x1024.size a
  hwx6_4 : ∀ i : grid6.Coords, EltTy.bits .f32 = 32 ∨ (Rect.block (s := S8192x1024) S1024x1024.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x1024.size a ≤ S8192x1024.size a
  hwx7_0 : ∀ i : grid7.Coords, EltTy.bits .bf16 = 32 ∨ (Rect.block (s := S8192x1024) S1024x1024.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S512x1024.size a ≤ S8192x1024.size a
  hwx7_1 : ∀ i : grid7.Coords, EltTy.bits .bf16 = 32 ∨ (Rect.block (s := S8192x1024) S512x1024.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S512x1024.size a ≤ S8192x1024.size a
  hwx7_2 : ∀ i : grid7.Coords, EltTy.bits .bf16 = 32 ∨ (Rect.block (s := S8192x1024) S512x1024.size (cc7_transform_2 i) (hinb7_2 i)).WholeWords (EltTy.packing .bf16)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x512.size a ≤ S8192x8192.size a
  hwx7_3 : ∀ i : grid7.Coords, EltTy.bits .f32 = 32 ∨ (Rect.block (s := S8192x8192) S1024x512.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1024x1024.size a ≤ S8192x1024.size a
  hwx7_4 : ∀ i : grid7.Coords, EltTy.bits .f32 = 32 ∨ (Rect.block (s := S8192x1024) S1024x1024.size (cc7_transform_4 i) (hinb7_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v1) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S1024x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v12) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v13) S1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v1) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v15) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v16) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v1) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v17) S1024x1024.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v18) S1x1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v19) S1024x1024.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v13) S1024x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v7) S512x1024.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v10) S512x1024.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v20_0) S1024x512.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v20_1) S1024x1024.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v4) S1024x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v16) S512x1024.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v19) S512x1024.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v21_0) S1024x512.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v21_1) S1024x1024.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x8192 : Shape := ⟨2, ![1024, 8192]⟩
abbrev S8192x8192 : Shape := ⟨2, ![8192, 8192]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1024x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S8192x1024, .f32⟩
  | .hbm, ⟨52, _⟩ => ⟨S1024x8192, .f32⟩
  | .hbm, ⟨53, _⟩ => ⟨S8192x8192, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_0 : Ref sig .tc := ⟨.hbm, 45, rfl⟩
abbrev main_v30 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_2 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S8192x1024_S1024x8192_1_0 : S8192x1024.Transposes [1, 0] S1024x8192
  bcast_S_S8192x8192 : S_.BroadcastsInDim S8192x8192 (![] : Fin 0 → Fin S8192x8192.rank)
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.K.Lin.lean ====
import proofs.«106974_j644245095138_1_alg».proof.Proof.Gen.Kernel.Launch
import proofs.«106974_j644245095138_1_alg».proof.Proof.Gen.Kernel.Skeleton
import proofs.«106974_j644245095138_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg BodyObligation)

variable {F : FTy → Type} [FloatOps F]

local notation "𝕄" => MT nD τ sig Unit (Elt F) ℕ (UR sig nD τ) ℕ

abbrev rBlk : Rect S1024x1024 := Rect.unit (s := S1024x1024) ![0, 0] S1024x1024.size inb_S1024x1024_S1024x1024_0_0
abbrev rBlkRow : Rect S1x1024 := Rect.unit (s := S1x1024) ![0, 0] S1x1024.size inb_S1x1024_S1x1024_0_0

/-- What one whole-block store of the payload of three whole-block loads leaves in the output block. -/
def linOut (x0 x1 : Vec F S1024x1024 .bf16) (x2 : Vec F S1x1024 .f32) : Vec F S1024x1024 .bf16 :=
  View.canon [⟨rBlk, k0_pay1 (View.ld x0 rBlk) (View.ld x1 rBlk) (View.ld x2 rBlkRow)⟩]

/-- Framed by any `Φ` and `O`, the body keeps its three inputs and leaves `linOut` of them in the output, whatever that held: its one store covers the block. -/
theorem lin_body (c : Dev nD) (i : grid0.Coords)
    (a1 : Memref sig .tc .vmem S1024x1024 .bf16) (h1 : a1.IsWhole) (a2 : Memref sig .tc .vmem S1024x1024 .bf16) (h2 : a2.IsWhole)
    (a3 : Memref sig .tc .vmem S1x1024 .f32) (h3 : a3.IsWhole) (a4 : Memref sig .tc .vmem S1024x1024 .bf16) (h4 : a4.IsWhole)
    {x0 x1 y0 y1 y3 : Vec F S1024x1024 .bf16} {x2 y2 : Vec F S1x1024 .f32}
    {b0 b1 b3 : Vec F S1024x1024 .bf16 → Vec F S1024x1024 .bf16} {b2 : Vec F S1x1024 .f32 → Vec F S1x1024 .f32}
    (e0 : ∀ d, b0 d = x0) (e1 : ∀ d, b1 d = x1) (e2 : ∀ d, b2 d = x2)
    (g0 : y0 = x0) (g1 : y1 = x1) (g2 : y2 = x2) (g3 : y3 = linOut x0 x1 x2) (Φ O : sProp 𝕄) :
    iprop(Φ ∗ O ∗ (∃ d, owns (c : Thread nD τ) a1 fullShare (b0 d)) ∗ (∃ d, owns (c : Thread nD τ) a2 fullShare (b1 d))
        ∗ (∃ d, owns (c : Thread nD τ) a3 fullShare (b2 d)) ∗ (∃ d, owns (c : Thread nD τ) a4 fullShare (b3 d)))
      ⊢ wp frame (wpE (defs₀ (F := F)) Variants.none c none) Set.univ (cc0__linear_kernel i a1 h1 a2 h2 a3 h3 a4 h4) fun _ =>
        iprop(Φ ∗ O ∗ owns (c : Thread nD τ) a1 fullShare y0 ∗ owns (c : Thread nD τ) a2 fullShare y1
          ∗ owns (c : Thread nD τ) a3 fullShare y2 ∗ owns (c : Thread nD τ) a4 fullShare y3) := by
  subst g0 g1 g2 g3
  simp only [e0, e1, e2]
  rw [cc0__linear_kernel_eq_skeleton]; unfold cc0__linear_kernel_skel owns
  iintro ⟨HΦ, Ho, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HΦ]; · iexact HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled [⟨rBlk, _⟩] S1024x1024.size (by rfl))

variable (V : (c : Dev nD) → (b : Ref sig .tc) → Buf (Elt F) ((c : Thread nD τ).loc b))

/-- Window `w`'s block at point `t` of its array as the region finds it. -/
def linIn (cfg : Cfg sig Λ₀) (c : Dev nD) (w : Fin cfg.W) (t : Fin cfg.N) : ((cfg.win w).xblock (cfg.grid.coords t)).Idx → Elt F (cfg.win w).elt :=
  ((cfg.win w).blk t).view.read (Elt F) (V c (Pipeline.arrRef cfg.spec w))

def dat0 (c : Dev nD) : Dat τ (Elt F) Unit ℕ (UR sig nD τ) ℕ cfg0 c where
  A w := V c (Pipeline.arrRef spec0 w)
  after w t := match w with
    | ⟨0, _⟩ => linIn V cfg0 c 0 t
    | ⟨1, _⟩ => linIn V cfg0 c 1 t
    | ⟨2, _⟩ => linIn V cfg0 c 2 t
    | ⟨3, _⟩ => linOut (linIn V cfg0 c 0 t) (linIn V cfg0 c 1 t) (linIn V cfg0 c 2 t)
  Φ _ := Pipeline.ΦA spec0 c
  q _ := fullShare
  owed _ := 0

theorem A_eq0 (c : Dev nD) (w : Fin cfg0.W) : (dat0 V c).A w = V c (Pipeline.arrRef spec0 w) := rfl

theorem after0_0 (c : Dev nD) (t : Fin cfg0.N) : (dat0 V c).after 0 t = linIn V cfg0 c 0 t := by dsimp only [dat0]
theorem after0_1 (c : Dev nD) (t : Fin cfg0.N) : (dat0 V c).after 1 t = linIn V cfg0 c 1 t := by dsimp only [dat0]
theorem after0_2 (c : Dev nD) (t : Fin cfg0.N) : (dat0 V c).after 2 t = linIn V cfg0 c 2 t := by dsimp only [dat0]
theorem after0_3 (c : Dev nD) (t : Fin cfg0.N) :
    (dat0 V c).after 3 t = linOut (linIn V cfg0 c 0 t) (linIn V cfg0 c 1 t) (linIn V cfg0 c 2 t) := by dsimp only [dat0]

theorem before0_0 (c : Dev nD) (t : Fin cfg0.N) (d) : (dat0 V c).before 0 t d = linIn V cfg0 c 0 t :=
  (dat0 V c).before_in_eq_fetched 0 rfl (fun _ => rfl) (fun _ _ _ => rfl) (fun t => congrArg _ (after0_0 V c t)) t d
theorem before0_1 (c : Dev nD) (t : Fin cfg0.N) (d) : (dat0 V c).before 1 t d = linIn V cfg0 c 1 t :=
  (dat0 V c).before_in_eq_fetched 1 rfl (fun _ => rfl) (fun _ _ _ => rfl) (fun t => congrArg _ (after0_1 V c t)) t d
theorem before0_2 (c : Dev nD) (t : Fin cfg0.N) (d) : (dat0 V c).before 2 t d = linIn V cfg0 c 2 t :=
  (dat0 V c).before_in_eq_fetched 2 rfl (fun _ => rfl) (fun _ _ _ => rfl) (fun t => congrArg _ (after0_2 V c t)) t d

theorem body_obligation0 (c : Dev nD) : BodyObligation (dat0 (F := F) V c) (defs₀ (F := F)) Variants.none () Set.univ := fun t => by
  rw [bigSep_W0, bigSep_W0]
  exact lin_body c (grid0.coords t) _ (hstage0_0 _) _ (hstage0_1 _) _ (hstage0_2 _) _ (hstage0_3 _)
    (before0_0 V c t) (before0_1 V c t) (before0_2 V c t) (after0_0 V c t) (after0_1 V c t) (after0_2 V c t) (after0_3 V c t) _ _

def dat1 (c : Dev nD) : Dat τ (Elt F) Unit ℕ (UR sig nD τ) ℕ cfg1 c where
  A w := V c (Pipeline.arrRef spec1 w)
  after w t := match w with
    | ⟨0, _⟩ => linIn V cfg1 c 0 t
    | ⟨1, _⟩ => linIn V cfg1 c 1 t
    | ⟨2, _⟩ => linIn V cfg1 c 2 t
    | ⟨3, _⟩ => linOut (linIn V cfg1 c 0 t) (linIn V cfg1 c 1 t) (linIn V cfg1 c 2 t)
  Φ _ := Pipeline.ΦA spec1 c
  q _ := fullShare
  owed _ := 0

theorem A_eq1 (c : Dev nD) (w : Fin cfg1.W) : (dat1 V c).A w = V c (Pipeline.arrRef spec1 w) := rfl

theorem after1_0 (c : Dev nD) (t : Fin cfg1.N) : (dat1 V c).after 0 t = linIn V cfg1 c 0 t := by dsimp only [dat1]
theorem after1_1 (c : Dev nD) (t : Fin cfg1.N) : (dat1 V c).after 1 t = linIn V cfg1 c 1 t := by dsimp only [dat1]
theorem after1_2 (c : Dev nD) (t : Fin cfg1.N) : (dat1 V c).after 2 t = linIn V cfg1 c 2 t := by dsimp only [dat1]
theorem after1_3 (c : Dev nD) (t : Fin cfg1.N) :
    (dat1 V c).after 3 t = linOut (linIn V cfg1 c 0 t) (linIn V cfg1 c 1 t) (linIn V cfg1 c 2 t) := by dsimp only [dat1]

theorem before1_0 (c : Dev nD) (t : Fin cfg1.N) (d) : (dat1 V c).before 0 t d = linIn V cfg1 c 0 t :=
  (dat1 V c).before_in_eq_fetched 0 rfl (fun _ => rfl) (fun _ _ _ => rfl) (fun t => congrArg _ (after1_0 V c t)) t d
theorem before1_1 (c : Dev nD) (t : Fin cfg1.N) (d) : (dat1 V c).before 1 t d = linIn V cfg1 c 1 t :=
  (dat1 V c).before_in_eq_fetched 1 rfl (fun _ => rfl) (fun _ _ _ => rfl) (fun t => congrArg _ (after1_1 V c t)) t d
theorem before1_2 (c : Dev nD) (t : Fin cfg1.N) (d) : (dat1 V c).before 2 t d = linIn V cfg1 c 2 t :=
  (dat1 V c).before_in_eq_fetched 2 rfl (fun _ => rfl) (fun _ _ _ => rfl) (fun t => congrArg _ (after1_2 V c t)) t d

theorem body_obligation1 (c : Dev nD) : BodyObligation (dat1 (F := F) V c) (defs₀ (F := F)) Variants.none () Set.univ := fun t => by
  rw [bigSep_W1, bigSep_W1]
  exact lin_body c (grid1.coords t) _ (hstage1_0 _) _ (hstage1_1 _) _ (hstage1_2 _) _ (hstage1_3 _)
    (before1_0 V c t) (before1_1 V c t) (before1_2 V c t) (after1_0 V c t) (after1_1 V c t) (after1_2 V c t) (after1_3 V c t) _ _

def dat2 (c : Dev nD) : Dat τ (Elt F) Unit ℕ (UR sig nD τ) ℕ cfg2 c where
  A w := V c (Pipeline.arrRef spec2 w)
  after w t := match w with
    | ⟨0, _⟩ => linIn V cfg2 c 0 t
    | ⟨1, _⟩ => linIn V cfg2 c 1 t
    | ⟨2, _⟩ => linIn V cfg2 c 2 t
    | ⟨3, _⟩ => linOut (linIn V cfg2 c 0 t) (linIn V cfg2 c 1 t) (linIn V cfg2 c 2 t)
  Φ _ := Pipeline.ΦA spec2 c
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = linIn V cfg2 c 0 t := by dsimp only [dat2]
theorem after2_1 (c : Dev nD) (t : Fin cfg2.N) : (dat2 V c).after 1 t = linIn V cfg2 c 1 t := by dsimp only [dat2]
theorem after2_2 (c : Dev nD) (t : Fin cfg2.N) : (dat2 V c).after 2 t = linIn V cfg2 c 2 t := by dsimp only [dat2]
theorem after2_3 (c : Dev nD) (t : Fin cfg2.N) :
    (dat2 V c).after 3 t = linOut (linIn V cfg2 c 0 t) (linIn V cfg2 c 1 t) (linIn V cfg2 c 2 t) := by dsimp only [dat2]

theorem before2_0 (c : Dev nD) (t : Fin cfg2.N) (d) : (dat2 V c).before 0 t d = linIn V cfg2 c 0 t :=
  (dat2 V c).before_in_eq_fetched 0 rfl (fun _ => rfl) (fun _ _ _ => rfl) (fun t => congrArg _ (after2_0 V c t)) t d
theorem before2_1 (c : Dev nD) (t : Fin cfg2.N) (d) : (dat2 V c).before 1 t d = linIn V cfg2 c 1 t :=
  (dat2 V c).before_in_eq_fetched 1 rfl (fun _ => rfl) (fun _ _ _ => rfl) (fun t => congrArg _ (after2_1 V c t)) t d
theorem before2_2 (c : Dev nD) (t : Fin cfg2.N) (d) : (dat2 V c).before 2 t d = linIn V cfg2 c 2 t :=
  (dat2 V c).before_in_eq_fetched 2 rfl (fun _ => rfl) (fun _ _ _ => rfl) (fun t => congrArg _ (after2_2 V c t)) t d

theorem body_obligation2 (c : Dev nD) : BodyObligation (dat2 (F := F) V c) (defs₀ (F := F)) Variants.none () Set.univ := fun t => by
  rw [bigSep_W2, bigSep_W2]
  exact lin_body c (grid2.coords t) _ (hstage2_0 _) _ (hstage2_1 _) _ (hstage2_2 _) _ (hstage2_3 _)
    (before2_0 V c t) (before2_1 V c t) (before2_2 V c t) (after2_0 V c t) (after2_1 V c t) (after2_2 V c t) (after2_3 V c t) _ _

def dat3 (c : Dev nD) : Dat τ (Elt F) Unit ℕ (UR sig nD τ) ℕ cfg3 c where
  A w := V c (Pipeline.arrRef spec3 w)
  after w t := match w with
    | ⟨0, _⟩ => linIn V cfg3 c 0 t
    | ⟨1, _⟩ => linIn V cfg3 c 1 t
    | ⟨2, _⟩ => linIn V cfg3 c 2 t
    | ⟨3, _⟩ => linOut (linIn V cfg3 c 0 t) (linIn V cfg3 c 1 t) (linIn V cfg3 c 2 t)
  Φ _ := Pipeline.ΦA spec3 c
  q _ := fullShare
  owed _ := 0

theorem A_eq3 (c : Dev nD) (w : Fin cfg3.W) : (dat3 V c).A w = V c (Pipeline.arrRef spec3 w) := rfl

theorem after3_0 (c : Dev nD) (t : Fin cfg3.N) : (dat3 V c).after 0 t = linIn V cfg3 c 0 t := by dsimp only [dat3]
theorem after3_1 (c : Dev nD) (t : Fin cfg3.N) : (dat3 V c).after 1 t = linIn V cfg3 c 1 t := by dsimp only [dat3]
theorem after3_2 (c : Dev nD) (t : Fin cfg3.N) : (dat3 V c).after 2 t = linIn V cfg3 c 2 t := by dsimp only [dat3]
theorem after3_3 (c : Dev nD) (t : Fin cfg3.N) :
    (dat3 V c).after 3 t = linOut (linIn V cfg3 c 0 t) (linIn V cfg3 c 1 t) (linIn V cfg3 c 2 t) := by dsimp only [dat3]

theorem before3_0 (c : Dev nD) (t : Fin cfg3.N) (d) : (dat3 V c).before 0 t d = linIn V cfg3 c 0 t :=
  (dat3 V c).before_in_eq_fetched 0 rfl (fun _ => rfl) (fun _ _ _ => rfl) (fun t => congrArg _ (after3_0 V c t)) t d
theorem before3_1 (c : Dev nD) (t : Fin cfg3.N) (d) : (dat3 V c).before 1 t d = linIn V cfg3 c 1 t :=
  (dat3 V c).before_in_eq_fetched 1 rfl (fun _ => rfl) (fun _ _ _ => rfl) (fun t => congrArg _ (after3_1 V c t)) t d
theorem before3_2 (c : Dev nD) (t : Fin cfg3.N) (d) : (dat3 V c).before 2 t d = linIn V cfg3 c 2 t :=
  (dat3 V c).before_in_eq_fetched 2 rfl (fun _ => rfl) (fun _ _ _ => rfl) (fun t => congrArg _ (after3_2 V c t)) t d

theorem body_obligation3 (c : Dev nD) : BodyObligation (dat3 (F := F) V c) (defs₀ (F := F)) Variants.none () Set.univ := fun t => by
  rw [bigSep_W3, bigSep_W3]
  exact lin_body c (grid3.coords t) _ (hstage3_0 _) _ (hstage3_1 _) _ (hstage3_2 _) _ (hstage3_3 _)
    (before3_0 V c t) (before3_1 V c t) (before3_2 V c t) (after3_0 V c t) (after3_1 V c t) (after3_2 V c t) (after3_3 V c t) _ _

def dat4 (c : Dev nD) : Dat τ (Elt F) Unit ℕ (UR sig nD τ) ℕ cfg4 c where
  A w := V c (Pipeline.arrRef spec4 w)
  after w t := match w with
    | ⟨0, _⟩ => linIn V cfg4 c 0 t
    | ⟨1, _⟩ => linIn V cfg4 c 1 t
    | ⟨2, _⟩ => linIn V cfg4 c 2 t
    | ⟨3, _⟩ => linOut (linIn V cfg4 c 0 t) (linIn V cfg4 c 1 t) (linIn V cfg4 c 2 t)
  Φ _ := Pipeline.ΦA spec4 c
  q _ := fullShare
  owed _ := 0

theorem A_eq4 (c : Dev nD) (w : Fin cfg4.W) : (dat4 V c).A w = V c (Pipeline.arrRef spec4 w) := rfl

theorem after4_0 (c : Dev nD) (t : Fin cfg4.N) : (dat4 V c).after 0 t = linIn V cfg4 c 0 t := by dsimp only [dat4]
theorem after4_1 (c : Dev nD) (t : Fin cfg4.N) : (dat4 V c).after 1 t = linIn V cfg4 c 1 t := by dsimp only [dat4]
theorem after4_2 (c : Dev nD) (t : Fin cfg4.N) : (dat4 V c).after 2 t = linIn V cfg4 c 2 t := by dsimp only [dat4]
theorem after4_3 (c : Dev nD) (t : Fin cfg4.N) :
    (dat4 V c).after 3 t = linOut (linIn V cfg4 c 0 t) (linIn V cfg4 c 1 t) (linIn V cfg4 c 2 t) := by dsimp only [dat4]

theorem before4_0 (c : Dev nD) (t : Fin cfg4.N) (d) : (dat4 V c).before 0 t d = linIn V cfg4 c 0 t :=
  (dat4 V c).before_in_eq_fetched 0 rfl (fun _ => rfl) (fun _ _ _ => rfl) (fun t => congrArg _ (after4_0 V c t)) t d
theorem before4_1 (c : Dev nD) (t : Fin cfg4.N) (d) : (dat4 V c).before 1 t d = linIn V cfg4 c 1 t :=
  (dat4 V c).before_in_eq_fetched 1 rfl (fun _ => rfl) (fun _ _ _ => rfl) (fun t => congrArg _ (after4_1 V c t)) t d
theorem before4_2 (c : Dev nD) (t : Fin cfg4.N) (d) : (dat4 V c).before 2 t d = linIn V cfg4 c 2 t :=
  (dat4 V c).before_in_eq_fetched 2 rfl (fun _ => rfl) (fun _ _ _ => rfl) (fun t => congrArg _ (after4_2 V c t)) t d

theorem body_obligation4 (c : Dev nD) : BodyObligation (dat4 (F := F) V c) (defs₀ (F := F)) Variants.none () Set.univ := fun t => by
  rw [bigSep_W4, bigSep_W4]
  exact lin_body c (grid4.coords t) _ (hstage4_0 _) _ (hstage4_1 _) _ (hstage4_2 _) _ (hstage4_3 _)
    (before4_0 V c t) (before4_1 V c t) (before4_2 V c t) (after4_0 V c t) (after4_1 V c t) (after4_2 V c t) (after4_3 V c t) _ _

def dat5 (c : Dev nD) : Dat τ (Elt F) Unit ℕ (UR sig nD τ) ℕ cfg5 c where
  A w := V c (Pipeline.arrRef spec5 w)
  after w t := match w with
    | ⟨0, _⟩ => linIn V cfg5 c 0 t
    | ⟨1, _⟩ => linIn V cfg5 c 1 t
    | ⟨2, _⟩ => linIn V cfg5 c 2 t
    | ⟨3, _⟩ => linOut (linIn V cfg5 c 0 t) (linIn V cfg5 c 1 t) (linIn V cfg5 c 2 t)
  Φ _ := Pipeline.ΦA spec5 c
  q _ := fullShare
  owed _ := 0

theorem A_eq5 (c : Dev nD) (w : Fin cfg5.W) : (dat5 V c).A w = V c (Pipeline.arrRef spec5 w) := rfl

theorem after5_0 (c : Dev nD) (t : Fin cfg5.N) : (dat5 V c).after 0 t = linIn V cfg5 c 0 t := by dsimp only [dat5]
theorem after5_1 (c : Dev nD) (t : Fin cfg5.N) : (dat5 V c).after 1 t = linIn V cfg5 c 1 t := by dsimp only [dat5]
theorem after5_2 (c : Dev nD) (t : Fin cfg5.N) : (dat5 V c).after 2 t = linIn V cfg5 c 2 t := by dsimp only [dat5]
theorem after5_3 (c : Dev nD) (t : Fin cfg5.N) :
    (dat5 V c).after 3 t = linOut (linIn V cfg5 c 0 t) (linIn V cfg5 c 1 t) (linIn V cfg5 c 2 t) := by dsimp only [dat5]

theorem before5_0 (c : Dev nD) (t : Fin cfg5.N) (d) : (dat5 V c).before 0 t d = linIn V cfg5 c 0 t :=
  (dat5 V c).before_in_eq_fetched 0 rfl (fun _ => rfl) (fun _ _ _ => rfl) (fun t => congrArg _ (after5_0 V c t)) t d
theorem before5_1 (c : Dev nD) (t : Fin cfg5.N) (d) : (dat5 V c).before 1 t d = linIn V cfg5 c 1 t :=
  (dat5 V c).before_in_eq_fetched 1 rfl (fun _ => rfl) (fun _ _ _ => rfl) (fun t => congrArg _ (after5_1 V c t)) t d
theorem before5_2 (c : Dev nD) (t : Fin cfg5.N) (d) : (dat5 V c).before 2 t d = linIn V cfg5 c 2 t :=
  (dat5 V c).before_in_eq_fetched 2 rfl (fun _ => rfl) (fun _ _ _ => rfl) (fun t => congrArg _ (after5_2 V c t)) t d

theorem body_obligation5 (c : Dev nD) : BodyObligation (dat5 (F := F) V c) (defs₀ (F := F)) Variants.none () Set.univ := fun t => by
  rw [bigSep_W5, bigSep_W5]
  exact lin_body c (grid5.coords t) _ (hstage5_0 _) _ (hstage5_1 _) _ (hstage5_2 _) _ (hstage5_3 _)
    (before5_0 V c t) (before5_1 V c t) (before5_2 V c t) (after5_0 V c t) (after5_1 V c t) (after5_2 V c t) (after5_3 V c t) _ _

end Cert.Kernel.Hand

end
-- ==== Proof.K.AttCore.lean ====
import proofs.«106974_j644245095138_1_alg».proof.Proof.Gen.Kernel.Launch
import proofs.«106974_j644245095138_1_alg».proof.Proof.Gen.Kernel.Skeleton
import proofs.«106974_j644245095138_1_alg».proof.Proof.Gen.Kernel.Points
import Idealize.ShloMosaic.Lib.Pipeline.Value
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev rSq : Rect S1024x1024 := Rect.unit (s := S1024x1024) ![0, 0] S1024x1024.size inb_S1024x1024_S1024x1024_0_0
abbrev rKv : Rect S512x1024 := Rect.unit (s := S512x1024) ![0, 0] S512x1024.size inb_S512x1024_S512x1024_0_0
abbrev rP : Rect S1024x512 := Rect.unit (s := S1024x512) ![0, 0] S1024x512.size inb_S1024x512_S1024x512_0_0

def probs (q : Vec F S1024x1024 .bf16) (k : Vec F S512x1024 .bf16) : Vec F S1024x512 .f32 :=
  View.canon [⟨rP, k6_pay2 (View.ld q rSq) (View.ld k rKv)⟩]

def accZero : Vec F S1024x1024 .f32 := View.canon [⟨rSq, k6_pay1 (F := F)⟩]

def accStep (q : Vec F S1024x1024 .bf16) (k v : Vec F S512x1024 .bf16) (a : Vec F S1024x1024 .f32) : Vec F S1024x1024 .f32 :=
  View.canon [⟨rSq, k6_pay3 (View.ld q rSq) (View.ld k rKv) (View.ld v rKv) (View.ld a rSq)⟩]

def ctxOf (a : Vec F S1024x1024 .f32) : Vec F S1024x1024 .f32 := View.canon [⟨rSq, View.ld a rSq⟩]

-- The two attention kernels are the same program.
theorem kernel7_eq : cc7__cross_attn_kernel (F := F) = cc6__cross_attn_kernel (F := F) := rfl

theorem hz : (![0, 0] : Fin 2 → ℕ) = fun _ => 0 := funext fun a => by fin_cases a <;> rfl

theorem cover_sq (p0 : Vec F S1024x1024 .f32) (L : List (View.Piece (Elt F) S1024x1024 .f32)) (y : S1024x1024.Idx) :
    ∃ pc ∈ ((⟨rSq, p0⟩ : View.Piece (Elt F) S1024x1024 .f32) :: L), y ∈ pc.1.set :=
  ⟨_, List.mem_cons_self, View.mem_set_unit_zero hz inb_S1024x1024_S1024x1024_0_0 y⟩
theorem cover_p (p0 : Vec F S1024x512 .f32) (L : List (View.Piece (Elt F) S1024x512 .f32)) (y : S1024x512.Idx) :
    ∃ pc ∈ ((⟨rP, p0⟩ : View.Piece (Elt F) S1024x512 .f32) :: L), y ∈ pc.1.set :=
  ⟨_, List.mem_cons_self, View.mem_set_unit_zero hz inb_S1024x512_S1024x512_0_0 y⟩

theorem readCov_sq {κ : Kind} {sp : Space} (v : View sig κ sp S1024x1024 .f32) (w : Vec F S1024x1024 .f32)
    (L : List (View.Piece (Elt F) S1024x1024 .f32)) :
    v.readCov ((⟨rSq, w⟩ : View.Piece (Elt F) S1024x1024 .f32) :: L) rSq.toLoadRect = w := by
  rw [View.readCov_eq_canon_ld _ _ _ (cover_sq (F := F) w L), View.canon_cons_unit_zero (S := S1024x1024) hz,
    View.ld_unit_zero (S := S1024x1024) hz]

theorem accStep_zero (q : Vec F S1024x1024 .bf16) (k v : Vec F S512x1024 .bf16) :
    accStep q k v accZero = k6_pay3 (View.ld q rSq) (View.ld k rKv) (View.ld v rKv) (k6_pay1 (F := F)) := by
  unfold accStep accZero
  rw [View.canon_unit_zero (S := S1024x1024) hz, View.canon_unit_zero (S := S1024x1024) hz]
  exact congrArg (k6_pay3 (View.ld q rSq) (View.ld k rKv) (View.ld v rKv))
    (View.ld_unit_zero (S := S1024x1024) hz inb_S1024x1024_S1024x1024_0_0 _)

theorem accStep_eq (q : Vec F S1024x1024 .bf16) (k v : Vec F S512x1024 .bf16) (a : Vec F S1024x1024 .f32) :
    accStep q k v a = k6_pay3 (View.ld q rSq) (View.ld k rKv) (View.ld v rKv) (View.ld a rSq) := by
  unfold accStep
  rw [View.canon_unit_zero (S := S1024x1024) hz]

theorem ctxOf_eq (a : Vec F S1024x1024 .f32) : ctxOf a = a := by
  unfold ctxOf
  rw [View.canon_unit_zero (S := S1024x1024) hz, View.ld_unit_zero (S := S1024x1024) hz]

abbrev cond (i : grid6.Coords) : Prop :=
  (Scalar.cmpi .ne (Scalar.extui (Scalar.cmpi .eq (BitVec.ofNat 32 (i 1).val) 0#32)) 0#32) = 1#1
theorem hcond : ∀ t : Fin grid6.N, cond (grid6.coords t) ↔ t.val % 16 = 0 := by decide +kernel

set_option maxHeartbeats 1000000 in
-- One run of the body on whole memrefs: the scratch restarts from zero exactly where the branch is taken.
theorem sound_kernel (c : Dev nD) (E : Set ℕ) (i : grid6.Coords)
    (arg2 : Memref sig .tc .vmem S1024x1024 .bf16) (harg2 : arg2.IsWhole) (arg3 : Memref sig .tc .vmem S512x1024 .bf16) (harg3 : arg3.IsWhole)
    (arg4 : Memref sig .tc .vmem S512x1024 .bf16) (harg4 : arg4.IsWhole) (arg5 : Memref sig .tc .vmem S1024x512 .f32) (harg5 : arg5.IsWhole)
    (arg6 : Memref sig .tc .vmem S1024x1024 .f32) (harg6 : arg6.IsWhole) (arg7 : Memref sig .tc .vmem S1024x1024 .f32) (harg7 : arg7.IsWhole)
    (q : Vec F S1024x1024 .bf16) (k v : Vec F S512x1024 .bf16) (a : Vec F S1024x1024 .f32) (K : PUnit → sProp 𝕄) :
    iprop(owns (c : Thread nD τ) arg2 fullShare q ∗ owns (c : Thread nD τ) arg3 fullShare k ∗ owns (c : Thread nD τ) arg4 fullShare v
        ∗ (∃ d, owns (c : Thread nD τ) arg5 fullShare d) ∗ (∃ d, owns (c : Thread nD τ) arg6 fullShare d) ∗ owns (c : Thread nD τ) arg7 fullShare a
        ∗ (iprop(owns (c : Thread nD τ) arg2 fullShare q ∗ owns (c : Thread nD τ) arg3 fullShare k ∗ owns (c : Thread nD τ) arg4 fullShare v
            ∗ owns (c : Thread nD τ) arg5 fullShare (probs q k)
            ∗ owns (c : Thread nD τ) arg6 fullShare (ctxOf (accStep q k v (if cond i then accZero else a)))
            ∗ owns (c : Thread nD τ) arg7 fullShare (accStep q k v (if cond i then accZero else a))) -∗ K ⟨⟩))
      ⊢ wp frame (wpE (defs₀ (F := F)) Variants.none c none) E
          (cc6__cross_attn_kernel i arg2 harg2 arg3 harg3 arg4 harg4 arg5 harg5 arg6 harg6 arg7 harg7) K := by
  simp only [cc6__cross_attn_kernel_eq_skeleton]; unfold cc6__cross_attn_kernel_skel
  unfold owns
  by_cases hc : cond i
  case' pos => rw [if_pos hc]
  case' neg => rw [if_neg hc]
  all_goals
    iintro ⟨⟨%f0, %hf0, H0⟩, ⟨%f1, %hf1, H1⟩, ⟨%f2, %hf2, H2⟩, ⟨%d3, %f3, -, H3⟩, ⟨%d4, %f4, -, H4⟩, ⟨%f5, %hf5, H5⟩, Hk⟩
    subst hf0; subst hf1; subst hf2; subst hf5
    sl_exec (disch := first | exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      exact View.read_writes_eq_canon _ _ _ (cover_p (F := F) _ _)
    isplitl [H4]
    · iexists _; isplitr
      swap; · iexact H4
      ipureintro
      sl_unfold_words
      rw [View.read_writes_eq_canon _ _ _ (cover_sq (F := F) _ _), ctxOf_eq]
      first
        | rw [accStep_zero, View.canon_unit_zero (S := S1024x1024) hz, readCov_sq, readCov_sq]; rfl
        | rw [accStep_eq, View.canon_unit_zero (S := S1024x1024) hz, readCov_sq]; rfl
    iexists _; isplitr
    swap; · iexact H5
    ipureintro
    sl_unfold_words
    rw [View.read_writes_eq_canon _ _ _ (cover_sq (F := F) _ _)]
    first
      | rw [accStep_zero, View.canon_cons_unit_zero (S := S1024x1024) hz, readCov_sq]; rfl
      | rw [accStep_eq, View.canon_unit_zero (S := S1024x1024) hz]; rfl

-- The scratch after point n: restarted from zero at the points n ≡ 0 (mod 16), else carried on from point n - 1.
def accOf (qb : Fin grid6.N → Vec F S1024x1024 .bf16) (kb vb : Fin grid6.N → Vec F S512x1024 .bf16) :
    (n : ℕ) → n < grid6.N → Vec F S1024x1024 .f32
  | 0, h => accStep (qb ⟨0, h⟩) (kb ⟨0, h⟩) (vb ⟨0, h⟩) accZero
  | n + 1, h => accStep (qb ⟨n + 1, h⟩) (kb ⟨n + 1, h⟩) (vb ⟨n + 1, h⟩)
      (if (n + 1) % 16 = 0 then accZero else accOf qb kb vb n (Nat.lt_of_succ_lt h))

theorem accOf_eq (qb : Fin grid6.N → Vec F S1024x1024 .bf16) (kb vb : Fin grid6.N → Vec F S512x1024 .bf16) (t : Fin grid6.N) :
    accOf qb kb vb t.val t.isLt = accStep (qb t) (kb t) (vb t)
      (if t.val % 16 = 0 then accZero else accOf qb kb vb (t.val - 1) (Nat.lt_of_le_of_lt (Nat.sub_le _ _) t.isLt)) := by
  obtain ⟨n, hn⟩ := t
  cases n with
  | zero =>
    show accStep _ _ _ accZero = accStep _ _ _ (if 0 % 16 = 0 then accZero else _)
    rw [if_pos (Nat.zero_mod 16)]
  | succ n =>
    show accOf qb kb vb (n + 1) hn = _
    rw [accOf]
    rfl

-- What one run of the body leaves in the scratch at point t, from anything at t = 0 and from point t - 1's value after.
theorem accOf_run (qb : Fin grid6.N → Vec F S1024x1024 .bf16) (kb vb : Fin grid6.N → Vec F S512x1024 .bf16) (t : Fin grid6.N)
    (a : Vec F S1024x1024 .f32)
    (ha : t.val ≠ 0 → a = accOf qb kb vb (t.val - 1) (Nat.lt_of_le_of_lt (Nat.sub_le _ _) t.isLt)) :
    accStep (qb t) (kb t) (vb t) (if cond (grid6.coords t) then accZero else a) = accOf qb kb vb t.val t.isLt := by
  rw [accOf_eq]
  by_cases h0 : t.val % 16 = 0
  · rw [if_pos h0, if_pos ((hcond t).mpr h0)]
  · rw [if_neg h0, if_neg (fun h => h0 ((hcond t).mp h)), ha (fun e => h0 (by rw [e]))]

-- The invariant before point n: the scratch at some contents, the accumulator's after point n - 1 when n > 0, beside R.
def PhiOf (R : sProp 𝕄) (c : Dev nD) (m : Memref sig .tc .vmem S1024x1024 .f32)
    (acc : (n : ℕ) → n < grid6.N → Vec F S1024x1024 .f32) (n : ℕ) (h : n ≤ grid6.N) : sProp 𝕄 :=
  iprop(∃ a, ⌜∀ h0 : n ≠ 0, a = acc (n - 1) (by omega)⌝ ∗ owns (c : Thread nD τ) m fullShare a ∗ R)

theorem PhiOf_in (A R : sProp 𝕄) (c : Dev nD) (m : Memref sig .tc .vmem S1024x1024 .f32)
    (acc : (n : ℕ) → n < grid6.N → Vec F S1024x1024 .f32)
    (hA : A = iprop((∃ d, owns (c : Thread nD τ) m fullShare d) ∗ R)) : A ⊢ PhiOf R c m acc 0 (Nat.zero_le _) := by
  rw [hA]; unfold PhiOf
  iintro ⟨⟨%d, HS⟩, HR⟩
  iexists d
  isplitr; · ipureintro; exact fun h0 => absurd rfl h0
  isplitl [HS]; · iexact HS
  iexact HR

theorem PhiOf_out (A R : sProp 𝕄) (c : Dev nD) (m : Memref sig .tc .vmem S1024x1024 .f32)
    (acc : (n : ℕ) → n < grid6.N → Vec F S1024x1024 .f32)
    (hA : A = iprop((∃ d, owns (c : Thread nD τ) m fullShare d) ∗ R)) {n : ℕ} {h : n ≤ grid6.N} : PhiOf R c m acc n h ⊢ A := by
  rw [hA]; unfold PhiOf
  iintro ⟨%a, -, HS, HR⟩
  isplitl [HS]; · iexists a; iexact HS
  iexact HR

-- The body at point t, between the invariant before the point and after it, the windows' buffers on any whole memrefs.
theorem att_body (R O : sProp 𝕄) (c : Dev nD) (m : Memref sig .tc .vmem S1024x1024 .f32) (hm : m.IsWhole)
    (qb : Fin grid6.N → Vec F S1024x1024 .bf16) (kb vb : Fin grid6.N → Vec F S512x1024 .bf16) (t : Fin grid6.N)
    (arg2 : Memref sig .tc .vmem S1024x1024 .bf16) (harg2 : arg2.IsWhole) (arg3 : Memref sig .tc .vmem S512x1024 .bf16) (harg3 : arg3.IsWhole)
    (arg4 : Memref sig .tc .vmem S512x1024 .bf16) (harg4 : arg4.IsWhole) (arg5 : Memref sig .tc .vmem S1024x512 .f32) (harg5 : arg5.IsWhole)
    (arg6 : Memref sig .tc .vmem S1024x1024 .f32) (harg6 : arg6.IsWhole)
    {D0 D1 D2 D3 D4 : Type} (f3 : D3 → Vec F S1024x512 .f32) (f4 : D4 → Vec F S1024x1024 .f32) :
    iprop(PhiOf R c m (accOf qb kb vb) t.val (Nat.le_of_lt t.isLt) ∗ O
        ∗ (∃ _ : D0, owns (c : Thread nD τ) arg2 fullShare (qb t)) ∗ (∃ _ : D1, owns (c : Thread nD τ) arg3 fullShare (kb t))
        ∗ (∃ _ : D2, owns (c : Thread nD τ) arg4 fullShare (vb t))
        ∗ (∃ d, owns (c : Thread nD τ) arg5 fullShare (f3 d)) ∗ (∃ d, owns (c : Thread nD τ) arg6 fullShare (f4 d)))
      ⊢ wp frame (wpE (defs₀ (F := F)) Variants.none c none) Set.univ
          (cc6__cross_attn_kernel (grid6.coords t) arg2 harg2 arg3 harg3 arg4 harg4 arg5 harg5 arg6 harg6 m hm)
          (fun _ => iprop(PhiOf R c m (accOf qb kb vb) (t.val + 1) t.isLt ∗ O
            ∗ owns (c : Thread nD τ) arg2 fullShare (qb t) ∗ owns (c : Thread nD τ) arg3 fullShare (kb t)
            ∗ owns (c : Thread nD τ) arg4 fullShare (vb t) ∗ owns (c : Thread nD τ) arg5 fullShare (probs (qb t) (kb t))
            ∗ owns (c : Thread nD τ) arg6 fullShare (ctxOf (accOf qb kb vb t.val t.isLt)))) := by
  unfold PhiOf
  iintro ⟨⟨%a, %ha, HS, HR⟩, HO, ⟨%d0, H0⟩, ⟨%d1, H1⟩, ⟨%d2, H2⟩, ⟨%d3, H3⟩, ⟨%d4, H4⟩⟩
  rw [← accOf_run qb kb vb t a ha]
  iapply (sound_kernel c Set.univ _ _ _ _ _ _ _ _ _ _ _ _ _ (qb t) (kb t) (vb t) a _)
  isplitl [H0]; · iexact H0
  isplitl [H1]; · iexact H1
  isplitl [H2]; · iexact H2
  isplitl [H3]; · iexists _; iexact H3
  isplitl [H4]; · iexists _; iexact H4
  isplitl [HS]; · iexact HS
  iintro ⟨H0, H1, H2, H3, H4, HS⟩
  isplitl [HS HR]
  · iexists _
    isplitr; · ipureintro; exact fun _ => accOf_run qb kb vb t a ha
    isplitl [HS]; · iexact HS
    iexact HR
  isplitl [HO]; · iexact HO
  isplitl [H0]; · iexact H0
  isplitl [H1]; · iexact H1
  isplitl [H2]; · iexact H2
  isplitl [H3]; · iexact H3
  iexact H4

end Cert.Kernel.Hand

end
-- ==== Proof.K.Att.lean ====
import proofs.«106974_j644245095138_1_alg».proof.Proof.K.AttCore

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev acc6 (c : Dev nD) : (n : ℕ) → n < cfg6.N → Vec F S1024x1024 .f32 :=
  accOf (iblk6 V c 0) (iblk6 V c 1) (iblk6 V c 2)

abbrev scM6 : Memref sig .tc .vmem S1024x1024 .f32 := Memref.whole cc6_scratch0

abbrev rest6 (c : Dev nD) : sProp 𝕄 :=
  iprop(Pipeline.scopedRestBut (Ix := Unit) (Name := ℕ) (U := UR sig nD τ) (Lvl := ℕ) (Val := Elt F) spec6 c [cc6_scratch0]
    ∗ (∃ r, prngReg c r))

def Phi6 (c : Dev nD) : (n : ℕ) → n ≤ cfg6.N → sProp 𝕄 :=
  PhiOf (rest6 (F := F) c) c scM6 (acc6 V c)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => probs (iblk6 V c 0 t) (iblk6 V c 1 t)
    | ⟨4, _⟩ => ctxOf (acc6 V c t.val t.isLt)
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = probs (iblk6 V c 0 t) (iblk6 V c 1 t) := by dsimp only [dat6]
theorem after6_4 (c : Dev nD) (t : Fin cfg6.N) : (dat6 V c).after 4 t = ctxOf (acc6 V c t.val t.isLt) := by dsimp only [dat6]

theorem PhiA6_eq (c : Dev nD) :
    (Pipeline.ΦA spec6 c : sProp 𝕄) = iprop((∃ d, owns (c : Thread nD τ) scM6 fullShare d) ∗ rest6 (F := F) c) := by
  unfold Pipeline.ΦA; rw [scopedRest6_split]; simp only [scM6, owns_whole]
  exact Idealize.SL.BI.Entails.antisymm Idealize.SL.BI.sep_assoc Idealize.SL.BI.sep_assoc'

theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)

theorem hin6 (c : Dev nD) : Pipeline.ΦA spec6 c ⊢ (dat6 V c).Φ 0 := PhiOf_in _ _ c scM6 _ (PhiA6_eq c)

theorem hout6 (c : Dev nD) : (dat6 V c).Φ (Fin.last cfg6.N) ⊢ Pipeline.ΦA spec6 c :=
  PhiOf_out _ _ c scM6 _ (PhiA6_eq c) (h := Nat.le_of_lt_succ (Fin.last cfg6.N).isLt)

theorem body_obligation6 (c : Dev nD) : BodyObligation (dat6 (F := F) V c) (defs₀ (F := F)) Variants.none () Set.univ := fun t => by
  rw [bigSep_W6, bigSep_W6]
  dsimp only
  simp only [before6_0, before6_1, before6_2]
  rw [show (dat6 V c).owesAt () t.succ = (dat6 V c).owesAt () t.castSucc from rfl,
    after6_0, after6_1, after6_2, after6_3, after6_4]
  show _ ⊢ wp _ _ _ (bodyAt6 t) _
  unfold bodyAt6
  exact att_body (rest6 (F := F) c) _ c scM6 _
    (iblk6 V c 0) (iblk6 V c 1) (iblk6 V c 2) t _ _ _ _ _ _ _ _ _ _ _ _

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev acc7 (c : Dev nD) : (n : ℕ) → n < cfg7.N → Vec F S1024x1024 .f32 :=
  accOf (iblk7 V c 0) (iblk7 V c 1) (iblk7 V c 2)

abbrev scM7 : Memref sig .tc .vmem S1024x1024 .f32 := Memref.whole cc7_scratch0

abbrev rest7 (c : Dev nD) : sProp 𝕄 :=
  iprop(Pipeline.scopedRestBut (Ix := Unit) (Name := ℕ) (U := UR sig nD τ) (Lvl := ℕ) (Val := Elt F) spec7 c [cc7_scratch0]
    ∗ (∃ r, prngReg c r))

def Phi7 (c : Dev nD) : (n : ℕ) → n ≤ cfg7.N → sProp 𝕄 :=
  PhiOf (rest7 (F := F) c) c scM7 (acc7 V c)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => probs (iblk7 V c 0 t) (iblk7 V c 1 t)
    | ⟨4, _⟩ => ctxOf (acc7 V c t.val t.isLt)
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = probs (iblk7 V c 0 t) (iblk7 V c 1 t) := by dsimp only [dat7]
theorem after7_4 (c : Dev nD) (t : Fin cfg7.N) : (dat7 V c).after 4 t = ctxOf (acc7 V c t.val t.isLt) := by dsimp only [dat7]

theorem PhiA7_eq (c : Dev nD) :
    (Pipeline.ΦA spec7 c : sProp 𝕄) = iprop((∃ d, owns (c : Thread nD τ) scM7 fullShare d) ∗ rest7 (F := F) c) := by
  unfold Pipeline.ΦA; rw [scopedRest7_split]; simp only [scM7, owns_whole]
  exact Idealize.SL.BI.Entails.antisymm Idealize.SL.BI.sep_assoc Idealize.SL.BI.sep_assoc'

theorem before7_0 (c : Dev nD) (t : Fin cfg7.N) (d) : (dat7 V c).before 0 t d = iblk7 V c 0 t :=
  ((dat7 V c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl)
    (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl)
    (fun t => by rw [after7_2]; unfold Dat.blockOf iblk7; rw [A_eq7]; try rfl) t d).trans
    (by unfold Dat.fetched Dat.blockOf iblk7; rw [A_eq7]; try rfl)

theorem hin7 (c : Dev nD) : Pipeline.ΦA spec7 c ⊢ (dat7 V c).Φ 0 := PhiOf_in _ _ c scM7 _ (PhiA7_eq c)

theorem hout7 (c : Dev nD) : (dat7 V c).Φ (Fin.last cfg7.N) ⊢ Pipeline.ΦA spec7 c :=
  PhiOf_out _ _ c scM7 _ (PhiA7_eq c) (h := Nat.le_of_lt_succ (Fin.last cfg7.N).isLt)

theorem body_obligation7 (c : Dev nD) : BodyObligation (dat7 (F := F) V c) (defs₀ (F := F)) Variants.none () Set.univ := fun t => by
  rw [bigSep_W7, bigSep_W7]
  dsimp only
  simp only [before7_0, before7_1, before7_2]
  rw [show (dat7 V c).owesAt () t.succ = (dat7 V c).owesAt () t.castSucc from rfl,
    after7_0, after7_1, after7_2, after7_3, after7_4]
  show _ ⊢ wp _ _ _ (bodyAt7 t) _
  unfold bodyAt7
  rw [kernel7_eq]
  exact att_body (rest7 (F := F) c) _ c scM7 _
    (iblk7 V c 0) (iblk7 V c 1) (iblk7 V c 2) t _ _ _ _ _ _ _ _ _ _ _ _

end Cert.Kernel.Hand

end
-- ==== Proof.K.Fold.lean ====
import proofs.«106974_j644245095138_1_alg».proof.Proof.K.Lin
import proofs.«106974_j644245095138_1_alg».proof.Proof.K.Att
import proofs.«106974_j644245095138_1_alg».proof.Proof.Gen.Kernel.Regions
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev tcOf (W : Dev nD → Valuation τ sig (Elt F)) : (c : Dev nD) → (b : Ref sig .tc) → Buf (Elt F) ((c : Thread nD τ).loc b) :=
  fun c b => W c b

def datAt : (p : Fin 8) → ((c : Dev nD) → (b : Ref sig .tc) → Buf (Elt F) ((c : Thread nD τ).loc b)) → (c : Dev nD) →
    Dat τ (Elt F) Unit ℕ (UR sig nD τ) ℕ (Pipeline.pin (pcfgs (F := F)) adm p) c
  | ⟨0, _⟩ => dat0 | ⟨1, _⟩ => dat1 | ⟨2, _⟩ => dat2 | ⟨3, _⟩ => dat3
  | ⟨4, _⟩ => dat4 | ⟨5, _⟩ => dat5 | ⟨6, _⟩ => dat6 | ⟨7, _⟩ => dat7

/-- What region `p` leaves when entered at `W`: its arrays at what the region's run leaves in them, every other buffer as entered. -/
def leave (p : Fin 8) (W : Dev nD → Valuation τ sig (Elt F)) (c : Dev nD) : Valuation τ sig (Elt F) :=
  Pipeline.withArrays (Pipeline.pin (pcfgs (F := F)) adm p).spec c (W c)
    fun w => (datAt p (tcOf W) c).arrAt w (Pipeline.pin (pcfgs (F := F)) adm p).N

theorem leave_arr (p : Fin 8) (L : Pipeline.LaunchFacts (nD := nD) (τ := τ) cfgs p) (W : Dev nD → Valuation τ sig (Elt F)) (c : Dev nD)
    (w : Fin (Pipeline.pin (pcfgs (F := F)) adm p).W) :
    leave p W c (Proc.devRef .tc (Pipeline.arrRef (Pipeline.pin (pcfgs (F := F)) adm p).spec w))
      = (datAt p (tcOf W) c).arrAt w (Pipeline.pin (pcfgs (F := F)) adm p).N :=
  Pipeline.withArrays_arr (Pipeline.pin (pcfgs (F := F)) adm p).spec L.win.arr_inj c (W c) _ w

theorem leave_of_ne (p : Fin 8) (W : Dev nD → Valuation τ sig (Elt F)) (c : Dev nD) (b : Ref sig .tc)
    (hb : ∀ w, Pipeline.arrRef (Pipeline.pin (pcfgs (F := F)) adm p).spec w ≠ b) :
    leave p W c (Proc.devRef .tc b) = W c (Proc.devRef .tc b) :=
  Pipeline.withArrays_of_ne (Pipeline.pin (pcfgs (F := F)) adm p).spec c (W c) _ b hb

/-- An input array leaves the region as it entered. -/
theorem leave_in (p : Fin 8) (L : Pipeline.LaunchFacts (nD := nD) (τ := τ) cfgs p) (W : Dev nD → Valuation τ sig (Elt F)) (c : Dev nD)
    (w : Fin (Pipeline.pin (pcfgs (F := F)) adm p).W) (hw : ((Pipeline.pin (pcfgs (F := F)) adm p).win w).isOut = false)
    (hA : (datAt p (tcOf W) c).A w = tcOf W c (Pipeline.arrRef (Pipeline.pin (pcfgs (F := F)) adm p).spec w)) :
    leave p W c (Proc.devRef .tc (Pipeline.arrRef (Pipeline.pin (pcfgs (F := F)) adm p).spec w))
      = W c (Proc.devRef .tc (Pipeline.arrRef (Pipeline.pin (pcfgs (F := F)) adm p).spec w)) :=
  (leave_arr p L W c w).trans (((datAt p (tcOf W) c).arrAt_in w hw _).trans hA)

theorem host_keep {ops : List (HloOp τ sig (Elt F))} {Ws : List (Ref sig .tc)}
    (hws : ops.Forall fun op => op.writes ⊆ (Ws.map (Proc.devRef (τ := τ) .tc)).toFinset) (W : Valuation τ sig (Elt F)) (b : Ref sig .tc)
    (h1 : b ∉ Ws) : StableHlo.after ops W (Proc.devRef .tc b) = W (Proc.devRef .tc b) :=
  StableHlo.after_of_writes_sub ops _ hws h1

/-- A buffer that the host operations before the region do not write and that is no array of the region is as it was before both. -/
theorem keep (p : Fin 8) {ops : List (HloOp τ sig (Elt F))} {Ws : List (Ref sig .tc)}
    (hws : ops.Forall fun op => op.writes ⊆ (Ws.map (Proc.devRef (τ := τ) .tc)).toFinset)
    (W : Dev nD → Valuation τ sig (Elt F)) (c : Dev nD) (b : Ref sig .tc) (h1 : b ∉ Ws)
    (h2 : ∀ w, Pipeline.arrRef (Pipeline.pin (pcfgs (F := F)) adm p).spec w ≠ b) :
    leave p (fun c => StableHlo.after ops (W c)) c (Proc.devRef .tc b) = W c (Proc.devRef .tc b) :=
  (leave_of_ne p _ c b h2).trans (StableHlo.after_of_writes_sub ops _ hws h1)

variable (m : (ℓ : Loc nD τ sig) → Buf (Elt F) ℓ) (ρ : Dev nD → PrngReg)

abbrev WpostS : Dev nD → Valuation τ sig (Elt F) := fun c b => (s₀ m ρ).mem ((c : Dev nD), b)

abbrev Wpre0 : Dev nD → Valuation τ sig (Elt F) := fun c => StableHlo.after hostOps0 (WpostS m ρ c)
def Wpost0 : Dev nD → Valuation τ sig (Elt F) := leave 0 (Wpre0 m ρ)
abbrev Wpre1 : Dev nD → Valuation τ sig (Elt F) := fun c => StableHlo.after hostOps1 (Wpost0 m ρ c)
def Wpost1 : Dev nD → Valuation τ sig (Elt F) := leave 1 (Wpre1 m ρ)
abbrev Wpre2 : Dev nD → Valuation τ sig (Elt F) := fun c => StableHlo.after hostOps2 (Wpost1 m ρ c)
def Wpost2 : Dev nD → Valuation τ sig (Elt F) := leave 2 (Wpre2 m ρ)
abbrev Wpre3 : Dev nD → Valuation τ sig (Elt F) := fun c => StableHlo.after hostOps3 (Wpost2 m ρ c)
def Wpost3 : Dev nD → Valuation τ sig (Elt F) := leave 3 (Wpre3 m ρ)
abbrev Wpre4 : Dev nD → Valuation τ sig (Elt F) := fun c => StableHlo.after hostOps4 (Wpost3 m ρ c)
def Wpost4 : Dev nD → Valuation τ sig (Elt F) := leave 4 (Wpre4 m ρ)
abbrev Wpre5 : Dev nD → Valuation τ sig (Elt F) := fun c => StableHlo.after hostOps5 (Wpost4 m ρ c)
def Wpost5 : Dev nD → Valuation τ sig (Elt F) := leave 5 (Wpre5 m ρ)
def Wpost6 : Dev nD → Valuation τ sig (Elt F) := leave 6 (Wpost5 m ρ)
def Wpost7 : Dev nD → Valuation τ sig (Elt F) := leave 7 (Wpost6 m ρ)

/-- The eight regions' proof data, each at the contents its region is entered with. -/
def pdats : (p : Fin 8) → (c : Dev nD) → Dat τ (Elt F) Unit ℕ (UR sig nD τ) ℕ (Pipeline.pin (pcfgs (F := F)) adm p) c
  | ⟨0, _⟩ => datAt 0 (tcOf (Wpre0 m ρ)) | ⟨1, _⟩ => datAt 1 (tcOf (Wpre1 m ρ)) | ⟨2, _⟩ => datAt 2 (tcOf (Wpre2 m ρ))
  | ⟨3, _⟩ => datAt 3 (tcOf (Wpre3 m ρ)) | ⟨4, _⟩ => datAt 4 (tcOf (Wpre4 m ρ)) | ⟨5, _⟩ => datAt 5 (tcOf (Wpre5 m ρ))
  | ⟨6, _⟩ => datAt 6 (tcOf (Wpost5 m ρ)) | ⟨7, _⟩ => datAt 7 (tcOf (Wpost6 m ρ))

abbrev Lnone : GSem nD τ sig → Finset Unit := fun _ => ∅
abbrev lvnone : GSem nD τ sig → Unit → ℕ := fun _ _ => 0

/-- What rides beside the buffers through every item: the generator register at some state, and nothing owed. -/
abbrev Rest (c : Dev nD) : sProp 𝕄 := iprop((∃ r, prngReg c r) ∗ ∃ W, owes (c : Thread nD τ) (0 : CellTallies nD τ sig Unit) W)

abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lnone lvnone :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Reg.lean ====
import proofs.«106974_j644245095138_1_alg».proof.Proof.K.Fold

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- A kernel region as an item of the program: every unscoped buffer is held at `Wpre` on entry and, on exit, at
    `Wpre` overwritten at the region's arrays by what its run leaves there. -/
def regOf (p : Fin 8) (L : Pipeline.LaunchFacts (nD := nD) (τ := τ) cfgs p) (Wpre : Dev nD → Valuation τ sig (Elt F))
    (hbody : ∀ c, BodyObligation (pdats m ρ p c) (defs₀ (F := F)) Variants.none () Set.univ)
    (hq : ∀ c w, (pdats m ρ p c).q w = fullShare) (howed : ∀ c t, (pdats m ρ p c).owed t = 0)
    (hrec : ∀ c t, (pdats m ρ p c).recorded t = Set.univ)
    (hA : ∀ c w, (pdats m ρ p c).A w = Wpre c (Pipeline.arrRef (Pipeline.pin (pcfgs (F := F)) adm p).spec w))
    (hin : ∀ c, Pipeline.ΦA (Pipeline.pin (pcfgs (F := F)) adm p).spec c ⊢ (pdats m ρ p c).Φ 0)
    (hout : ∀ c, (pdats m ρ p c).Φ (Fin.last _) ⊢ Pipeline.ΦA (Pipeline.pin (pcfgs (F := F)) adm p).spec c) :
    Pipeline.RegionSeg (pcfgs (F := F)) adm (pdats m ρ) () defs₀ Variants.none Lnone lvnone p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ Lnone lvnone p howed
  pre c := iprop(StableHlo.held (c : Thread nD τ) (Pipeline.ucRefs τ sig) (Wpre c) ∗ Rest c)
  post c := iprop(StableHlo.held (c : Thread nD τ) (Pipeline.ucRefs τ sig)
    (Pipeline.withArrays (Pipeline.pin (pcfgs (F := F)) adm p).spec c (Wpre c) fun w => (pdats m ρ p c).arrAt w (Pipeline.pin (pcfgs (F := F)) adm p).N) ∗ Rest c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Wpre c b)
  hentry c := by
    rw [Pipeline.ownSems0_none]
    have hsplit := Pipeline.arrays_of_unscopedBufs (p := p) (pcfgs (F := F)) adm (pdats m ρ) L.win L.arr_whole c
      ((pdats m ρ p c).share_full (hq c)) (fun b => Wpre c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun _ _ => Or.inl (hrec c 0 ▸ trivial)
      iexact HO
    isplitl [Hp]; · iexact Hp
    iexact Hrest
  hin c := by
    refine (?_ : _ ⊢ Pipeline.ΦA (Pipeline.pin (pcfgs (F := F)) adm p).spec c).trans (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c (pdats m ρ) ((pdats m ρ p c).share_full (hq c)) (fun b => Wpre c b)
      (fun b => Pipeline.withArrays (Pipeline.pin (pcfgs (F := F)) adm p).spec c (Wpre c) (fun w => (pdats m ρ p c).arrAt w (Pipeline.pin (pcfgs (F := F)) adm p).N) b)
      ((pdats m ρ p c).arrAt · (Pipeline.pin (pcfgs (F := F)) adm p).N)
      (fun w => (Pipeline.withArrays_arr (Pipeline.pin (pcfgs (F := F)) adm p).spec L.win.arr_inj c (Wpre c)
        (fun w => (pdats m ρ p c).arrAt w (Pipeline.pin (pcfgs (F := F)) adm p).N) w).symm)
      (fun b hb => Pipeline.withArrays_of_ne (Pipeline.pin (pcfgs (F := F)) adm p).spec c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

def reg0 : Pipeline.RegionSeg (pcfgs (F := F)) adm (pdats m ρ) () defs₀ Variants.none Lnone lvnone 0 :=
  regOf m ρ 0 launch0 (Wpre0 m ρ) (body_obligation0 (tcOf (Wpre0 m ρ))) (fun _ _ => rfl) (fun _ _ => rfl) (fun _ _ => rfl)
    (fun _ _ => rfl) (fun _ => .rfl) (fun _ => .rfl)

def reg1 : Pipeline.RegionSeg (pcfgs (F := F)) adm (pdats m ρ) () defs₀ Variants.none Lnone lvnone 1 :=
  regOf m ρ 1 launch1 (Wpre1 m ρ) (body_obligation1 (tcOf (Wpre1 m ρ))) (fun _ _ => rfl) (fun _ _ => rfl) (fun _ _ => rfl)
    (fun _ _ => rfl) (fun _ => .rfl) (fun _ => .rfl)

def reg2 : Pipeline.RegionSeg (pcfgs (F := F)) adm (pdats m ρ) () defs₀ Variants.none Lnone lvnone 2 :=
  regOf m ρ 2 launch2 (Wpre2 m ρ) (body_obligation2 (tcOf (Wpre2 m ρ))) (fun _ _ => rfl) (fun _ _ => rfl) (fun _ _ => rfl)
    (fun _ _ => rfl) (fun _ => .rfl) (fun _ => .rfl)

def reg3 : Pipeline.RegionSeg (pcfgs (F := F)) adm (pdats m ρ) () defs₀ Variants.none Lnone lvnone 3 :=
  regOf m ρ 3 launch3 (Wpre3 m ρ) (body_obligation3 (tcOf (Wpre3 m ρ))) (fun _ _ => rfl) (fun _ _ => rfl) (fun _ _ => rfl)
    (fun _ _ => rfl) (fun _ => .rfl) (fun _ => .rfl)

def reg4 : Pipeline.RegionSeg (pcfgs (F := F)) adm (pdats m ρ) () defs₀ Variants.none Lnone lvnone 4 :=
  regOf m ρ 4 launch4 (Wpre4 m ρ) (body_obligation4 (tcOf (Wpre4 m ρ))) (fun _ _ => rfl) (fun _ _ => rfl) (fun _ _ => rfl)
    (fun _ _ => rfl) (fun _ => .rfl) (fun _ => .rfl)

def reg5 : Pipeline.RegionSeg (pcfgs (F := F)) adm (pdats m ρ) () defs₀ Variants.none Lnone lvnone 5 :=
  regOf m ρ 5 launch5 (Wpre5 m ρ) (body_obligation5 (tcOf (Wpre5 m ρ))) (fun _ _ => rfl) (fun _ _ => rfl) (fun _ _ => rfl)
    (fun _ _ => rfl) (fun _ => .rfl) (fun _ => .rfl)

def reg6 : Pipeline.RegionSeg (pcfgs (F := F)) adm (pdats m ρ) () defs₀ Variants.none Lnone lvnone 6 :=
  regOf m ρ 6 launch6 (Wpost5 m ρ) (body_obligation6 (tcOf (Wpost5 m ρ))) (fun _ _ => rfl) (fun _ _ => rfl) (fun _ _ => rfl)
    (fun _ _ => rfl) (hin6 (tcOf (Wpost5 m ρ))) (hout6 (tcOf (Wpost5 m ρ)))

def reg7 : Pipeline.RegionSeg (pcfgs (F := F)) adm (pdats m ρ) () defs₀ Variants.none Lnone lvnone 7 :=
  regOf m ρ 7 launch7 (Wpost6 m ρ) (body_obligation7 (tcOf (Wpost6 m ρ))) (fun _ _ => rfl) (fun _ _ => rfl) (fun _ _ => rfl)
    (fun _ _ => rfl) (hin7 (tcOf (Wpost6 m ρ))) (hout7 (tcOf (Wpost6 m ρ)))

end Cert.Kernel.Hand

end
-- ==== Proof.K.Launch.lean ====
import proofs.«106974_j644245095138_1_alg».proof.Proof.K.Reg

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's items in order: six stretches of host operations, each before its projection region, then the two attention regions. -/
abbrev items : List (Pipeline.Seg (pcfgs (F := F)) adm (pdats m ρ) () defs₀ Variants.none Lnone lvnone) :=
  [ .host (hostItem hostOps0 hostOps0_sub hostOps0_fresh (WpostS m ρ)),
    .region (reg0 m ρ),
    .host (hostItem hostOps1 hostOps1_sub hostOps1_fresh (Wpost0 m ρ)),
    .region (reg1 m ρ),
    .host (hostItem hostOps2 hostOps2_sub hostOps2_fresh (Wpost1 m ρ)),
    .region (reg2 m ρ),
    .host (hostItem hostOps3 hostOps3_sub hostOps3_fresh (Wpost2 m ρ)),
    .region (reg3 m ρ),
    .host (hostItem hostOps4 hostOps4_sub hostOps4_fresh (Wpost3 m ρ)),
    .region (reg4 m ρ),
    .host (hostItem hostOps5 hostOps5_sub hostOps5_fresh (Wpost4 m ρ)),
    .region (reg5 m ρ),
    .region (reg6 m ρ),
    .region (reg7 m ρ) ]

theorem main_run (c : Dev nD) : main (F := F) c = Pipeline.Seg.run (items m ρ) := (main_chain c).trans (by chain_rfl)

abbrev Tend (c : Dev nD) : sProp 𝕄 := iprop(StableHlo.held (c : Thread nD τ) (Pipeline.ucRefs τ sig) (Wpost7 m ρ c) ∗ ∃ r, prngReg c r)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = Wpost7 m ρ c b) :=
  Pipeline.θ_run_regions_kit (pcfgs (F := F)) adm (pdats m ρ) () cellOf_inj emb₁ defs₀ Variants.none Lnone lvnone m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WpostS m ρ c) ∗ Rest c)) (Tₙ := Tend m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (Wpost7 m ρ c) ∗ Rest c)
          ⊢ iprop(Tend m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach Lnone lvnone fun c => ?_
      rw [show unscopedBufs c (fun b => m ((c : Thread nD τ).loc b)) = StableHlo.held (c : Thread nD τ) (Pipeline.ucRefs τ sig) (WpostS m ρ c)
        from Pipeline.unscopedBufs_held c (WpostS m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wpost7 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wpost7 m ρ c) s')
      isplitl [Hh] <;> iassumption)
    (hQ := fun s h => h)

end Cert.Kernel.Hand

end
-- ==== Proof.K.Args.lean ====
import proofs.«106974_j644245095138_1_alg».proof.Proof.K.Launch

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) :=
  [main_arg0, main_arg1, main_arg2, main_arg3, main_arg4, main_arg5, main_arg6, main_arg7, main_arg8, main_arg9,
   main_arg10, main_arg11, main_arg12, main_arg13]

theorem arg_not_host : ∀ b ∈ argRefs, b ∉ hostOps0_W ∧ b ∉ hostOps1_W ∧ b ∉ hostOps2_W ∧ b ∉ hostOps3_W ∧ b ∉ hostOps4_W ∧ b ∉ hostOps5_W := by
  decide

theorem arg_not_arr0 : ∀ b ∈ argRefs, ∀ w : Fin cfg0.W, Pipeline.arrRef spec0 w ≠ b := by decide
theorem arg_not_arr1 : ∀ b ∈ argRefs, ∀ w : Fin cfg1.W, Pipeline.arrRef spec1 w ≠ b := by decide
theorem arg_not_arr2 : ∀ b ∈ argRefs, ∀ w : Fin cfg2.W, Pipeline.arrRef spec2 w ≠ b := by decide
theorem arg_not_arr3 : ∀ b ∈ argRefs, ∀ w : Fin cfg3.W, Pipeline.arrRef spec3 w ≠ b := by decide
theorem arg_not_arr4 : ∀ b ∈ argRefs, ∀ w : Fin cfg4.W, Pipeline.arrRef spec4 w ≠ b := by decide
theorem arg_not_arr5 : ∀ b ∈ argRefs, ∀ w : Fin cfg5.W, Pipeline.arrRef spec5 w ≠ b := by decide
theorem arg_not_arr6 : ∀ b ∈ argRefs, ∀ w : Fin cfg6.W, Pipeline.arrRef spec6 w ≠ b := by decide
theorem arg_not_arr7 : ∀ b ∈ argRefs, ∀ w : Fin cfg7.W, Pipeline.arrRef spec7 w ≠ b := by decide

/-- No item writes an argument array: it holds its launch contents after the last one. -/
theorem arg_kept (c : Dev nD) (b : Ref sig .tc) (hb : b ∈ argRefs) :
    Wpost7 m ρ c (Proc.devRef .tc b) = m ((c : Thread nD τ).loc b) :=
  have hh := arg_not_host b hb
  (leave_of_ne 7 (Wpost6 m ρ) c b (arg_not_arr7 b hb)).trans <| (leave_of_ne 6 (Wpost5 m ρ) c b (arg_not_arr6 b hb)).trans <|
  (keep 5 hostOps5_writes (Wpost4 m ρ) c b hh.2.2.2.2.2 (arg_not_arr5 b hb)).trans <| (keep 4 hostOps4_writes (Wpost3 m ρ) c b hh.2.2.2.2.1 (arg_not_arr4 b hb)).trans <|
  (keep 3 hostOps3_writes (Wpost2 m ρ) c b hh.2.2.2.1 (arg_not_arr3 b hb)).trans <| (keep 2 hostOps2_writes (Wpost1 m ρ) c b hh.2.2.1 (arg_not_arr2 b hb)).trans <|
  (keep 1 hostOps1_writes (Wpost0 m ρ) c b hh.2.1 (arg_not_arr1 b hb)).trans <| (keep 0 hostOps0_writes (WpostS m ρ) c b hh.1 (arg_not_arr0 b hb)).trans rfl

/-- Every argument array of core `c` holds in `mem` what it held at launch. -/
abbrev ArgsKept (c : Dev nD) (mem : (ℓ : Loc nD τ sig) → Buf (Elt F) ℓ) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)

theorem args_of_all (c : Dev nD) (mem : (ℓ : Loc nD τ sig) → Buf (Elt F) ℓ)
    (h : ∀ b ∈ Pipeline.ucRefs τ sig, mem (((c : Thread nD τ)).1, b) = Wpost7 m ρ c b) : ArgsKept m c mem :=
  ⟨(h _ (mem_uc main_arg0 (by decide))).trans (arg_kept m ρ c main_arg0 (by decide)),
   (h _ (mem_uc main_arg1 (by decide))).trans (arg_kept m ρ c main_arg1 (by decide)),
   (h _ (mem_uc main_arg2 (by decide))).trans (arg_kept m ρ c main_arg2 (by decide)),
   (h _ (mem_uc main_arg3 (by decide))).trans (arg_kept m ρ c main_arg3 (by decide)),
   (h _ (mem_uc main_arg4 (by decide))).trans (arg_kept m ρ c main_arg4 (by decide)),
   (h _ (mem_uc main_arg5 (by decide))).trans (arg_kept m ρ c main_arg5 (by decide)),
   (h _ (mem_uc main_arg6 (by decide))).trans (arg_kept m ρ c main_arg6 (by decide)),
   (h _ (mem_uc main_arg7 (by decide))).trans (arg_kept m ρ c main_arg7 (by decide)),
   (h _ (mem_uc main_arg8 (by decide))).trans (arg_kept m ρ c main_arg8 (by decide)),
   (h _ (mem_uc main_arg9 (by decide))).trans (arg_kept m ρ c main_arg9 (by decide)),
   (h _ (mem_uc main_arg10 (by decide))).trans (arg_kept m ρ c main_arg10 (by decide)),
   (h _ (mem_uc main_arg11 (by decide))).trans (arg_kept m ρ c main_arg11 (by decide)),
   (h _ (mem_uc main_arg12 (by decide))).trans (arg_kept m ρ c main_arg12 (by decide)),
   (h _ (mem_uc main_arg13 (by decide))).trans (arg_kept m ρ c main_arg13 (by decide))⟩

/-- Every weakly fair execution of the program terminates, faulting nowhere, with every argument array as launched. -/
theorem frame : θ_run defs (onTc (τ := τ) (main (F := F))) ⟨m, fun _ => 0, ρ⟩ (fun r => ∀ c : Dev nD, ArgsKept m c r.2.mem) :=
  (θ_run defs _ _).mono (fun r h c => args_of_all m ρ c r.2.mem (h c)) (run_all m ρ)

end Cert.Kernel.Hand

end
-- ==== Proof.KI.Lin.lean ====
import proofs.«106974_j644245095138_1_alg».proof.Proof.Gen.KernelIdeal.Launch
import proofs.«106974_j644245095138_1_alg».proof.Proof.Gen.KernelIdeal.Skeleton
import proofs.«106974_j644245095138_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg BodyObligation)

variable {F : FTy → Type} [FloatOps F]

local notation "𝕄" => MT nD τ sig Unit (Elt F) ℕ (UR sig nD τ) ℕ

abbrev rBlk : Rect S1024x1024 := Rect.unit (s := S1024x1024) ![0, 0] S1024x1024.size inb_S1024x1024_S1024x1024_0_0
abbrev rBlkRow : Rect S1x1024 := Rect.unit (s := S1x1024) ![0, 0] S1x1024.size inb_S1x1024_S1x1024_0_0

/-- What one whole-block store of the payload of three whole-block loads leaves in the output block. -/
def linOut (x0 x1 : Vec F S1024x1024 .bf16) (x2 : Vec F S1x1024 .f32) : Vec F S1024x1024 .bf16 :=
  View.canon [⟨rBlk, k0_pay1 (View.ld x0 rBlk) (View.ld x1 rBlk) (View.ld x2 rBlkRow)⟩]

/-- Framed by any `Φ` and `O`, the body keeps its three inputs and leaves `linOut` of them in the output, whatever that held: its one store covers the block. -/
theorem lin_body (c : Dev nD) (i : grid0.Coords)
    (a1 : Memref sig .tc .vmem S1024x1024 .bf16) (h1 : a1.IsWhole) (a2 : Memref sig .tc .vmem S1024x1024 .bf16) (h2 : a2.IsWhole)
    (a3 : Memref sig .tc .vmem S1x1024 .f32) (h3 : a3.IsWhole) (a4 : Memref sig .tc .vmem S1024x1024 .bf16) (h4 : a4.IsWhole)
    {x0 x1 y0 y1 y3 : Vec F S1024x1024 .bf16} {x2 y2 : Vec F S1x1024 .f32}
    {b0 b1 b3 : Vec F S1024x1024 .bf16 → Vec F S1024x1024 .bf16} {b2 : Vec F S1x1024 .f32 → Vec F S1x1024 .f32}
    (e0 : ∀ d, b0 d = x0) (e1 : ∀ d, b1 d = x1) (e2 : ∀ d, b2 d = x2)
    (g0 : y0 = x0) (g1 : y1 = x1) (g2 : y2 = x2) (g3 : y3 = linOut x0 x1 x2) (Φ O : sProp 𝕄) :
    iprop(Φ ∗ O ∗ (∃ d, owns (c : Thread nD τ) a1 fullShare (b0 d)) ∗ (∃ d, owns (c : Thread nD τ) a2 fullShare (b1 d))
        ∗ (∃ d, owns (c : Thread nD τ) a3 fullShare (b2 d)) ∗ (∃ d, owns (c : Thread nD τ) a4 fullShare (b3 d)))
      ⊢ wp frame (wpE (defs₀ (F := F)) Variants.none c none) Set.univ (cc0__linear_kernel i a1 h1 a2 h2 a3 h3 a4 h4) fun _ =>
        iprop(Φ ∗ O ∗ owns (c : Thread nD τ) a1 fullShare y0 ∗ owns (c : Thread nD τ) a2 fullShare y1
          ∗ owns (c : Thread nD τ) a3 fullShare y2 ∗ owns (c : Thread nD τ) a4 fullShare y3) := by
  subst g0 g1 g2 g3
  simp only [e0, e1, e2]
  rw [cc0__linear_kernel_eq_skeleton]; unfold cc0__linear_kernel_skel owns
  iintro ⟨HΦ, Ho, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HΦ]; · iexact HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled [⟨rBlk, _⟩] S1024x1024.size (by rfl))

variable (V : (c : Dev nD) → (b : Ref sig .tc) → Buf (Elt F) ((c : Thread nD τ).loc b))

/-- Window `w`'s block at point `t` of its array as the region finds it. -/
def linIn (cfg : Cfg sig Λ₀) (c : Dev nD) (w : Fin cfg.W) (t : Fin cfg.N) : ((cfg.win w).xblock (cfg.grid.coords t)).Idx → Elt F (cfg.win w).elt :=
  ((cfg.win w).blk t).view.read (Elt F) (V c (Pipeline.arrRef cfg.spec w))

def dat0 (c : Dev nD) : Dat τ (Elt F) Unit ℕ (UR sig nD τ) ℕ cfg0 c where
  A w := V c (Pipeline.arrRef spec0 w)
  after w t := match w with
    | ⟨0, _⟩ => linIn V cfg0 c 0 t
    | ⟨1, _⟩ => linIn V cfg0 c 1 t
    | ⟨2, _⟩ => linIn V cfg0 c 2 t
    | ⟨3, _⟩ => linOut (linIn V cfg0 c 0 t) (linIn V cfg0 c 1 t) (linIn V cfg0 c 2 t)
  Φ _ := Pipeline.ΦA spec0 c
  q _ := fullShare
  owed _ := 0

theorem A_eq0 (c : Dev nD) (w : Fin cfg0.W) : (dat0 V c).A w = V c (Pipeline.arrRef spec0 w) := rfl

theorem after0_0 (c : Dev nD) (t : Fin cfg0.N) : (dat0 V c).after 0 t = linIn V cfg0 c 0 t := by dsimp only [dat0]
theorem after0_1 (c : Dev nD) (t : Fin cfg0.N) : (dat0 V c).after 1 t = linIn V cfg0 c 1 t := by dsimp only [dat0]
theorem after0_2 (c : Dev nD) (t : Fin cfg0.N) : (dat0 V c).after 2 t = linIn V cfg0 c 2 t := by dsimp only [dat0]
theorem after0_3 (c : Dev nD) (t : Fin cfg0.N) :
    (dat0 V c).after 3 t = linOut (linIn V cfg0 c 0 t) (linIn V cfg0 c 1 t) (linIn V cfg0 c 2 t) := by dsimp only [dat0]

theorem before0_0 (c : Dev nD) (t : Fin cfg0.N) (d) : (dat0 V c).before 0 t d = linIn V cfg0 c 0 t :=
  (dat0 V c).before_in_eq_fetched 0 rfl (fun _ => rfl) (fun _ _ _ => rfl) (fun t => congrArg _ (after0_0 V c t)) t d
theorem before0_1 (c : Dev nD) (t : Fin cfg0.N) (d) : (dat0 V c).before 1 t d = linIn V cfg0 c 1 t :=
  (dat0 V c).before_in_eq_fetched 1 rfl (fun _ => rfl) (fun _ _ _ => rfl) (fun t => congrArg _ (after0_1 V c t)) t d
theorem before0_2 (c : Dev nD) (t : Fin cfg0.N) (d) : (dat0 V c).before 2 t d = linIn V cfg0 c 2 t :=
  (dat0 V c).before_in_eq_fetched 2 rfl (fun _ => rfl) (fun _ _ _ => rfl) (fun t => congrArg _ (after0_2 V c t)) t d

theorem body_obligation0 (c : Dev nD) : BodyObligation (dat0 (F := F) V c) (defs₀ (F := F)) Variants.none () Set.univ := fun t => by
  rw [bigSep_W0, bigSep_W0]
  exact lin_body c (grid0.coords t) _ (hstage0_0 _) _ (hstage0_1 _) _ (hstage0_2 _) _ (hstage0_3 _)
    (before0_0 V c t) (before0_1 V c t) (before0_2 V c t) (after0_0 V c t) (after0_1 V c t) (after0_2 V c t) (after0_3 V c t) _ _

def dat1 (c : Dev nD) : Dat τ (Elt F) Unit ℕ (UR sig nD τ) ℕ cfg1 c where
  A w := V c (Pipeline.arrRef spec1 w)
  after w t := match w with
    | ⟨0, _⟩ => linIn V cfg1 c 0 t
    | ⟨1, _⟩ => linIn V cfg1 c 1 t
    | ⟨2, _⟩ => linIn V cfg1 c 2 t
    | ⟨3, _⟩ => linOut (linIn V cfg1 c 0 t) (linIn V cfg1 c 1 t) (linIn V cfg1 c 2 t)
  Φ _ := Pipeline.ΦA spec1 c
  q _ := fullShare
  owed _ := 0

theorem A_eq1 (c : Dev nD) (w : Fin cfg1.W) : (dat1 V c).A w = V c (Pipeline.arrRef spec1 w) := rfl

theorem after1_0 (c : Dev nD) (t : Fin cfg1.N) : (dat1 V c).after 0 t = linIn V cfg1 c 0 t := by dsimp only [dat1]
theorem after1_1 (c : Dev nD) (t : Fin cfg1.N) : (dat1 V c).after 1 t = linIn V cfg1 c 1 t := by dsimp only [dat1]
theorem after1_2 (c : Dev nD) (t : Fin cfg1.N) : (dat1 V c).after 2 t = linIn V cfg1 c 2 t := by dsimp only [dat1]
theorem after1_3 (c : Dev nD) (t : Fin cfg1.N) :
    (dat1 V c).after 3 t = linOut (linIn V cfg1 c 0 t) (linIn V cfg1 c 1 t) (linIn V cfg1 c 2 t) := by dsimp only [dat1]

theorem before1_0 (c : Dev nD) (t : Fin cfg1.N) (d) : (dat1 V c).before 0 t d = linIn V cfg1 c 0 t :=
  (dat1 V c).before_in_eq_fetched 0 rfl (fun _ => rfl) (fun _ _ _ => rfl) (fun t => congrArg _ (after1_0 V c t)) t d
theorem before1_1 (c : Dev nD) (t : Fin cfg1.N) (d) : (dat1 V c).before 1 t d = linIn V cfg1 c 1 t :=
  (dat1 V c).before_in_eq_fetched 1 rfl (fun _ => rfl) (fun _ _ _ => rfl) (fun t => congrArg _ (after1_1 V c t)) t d
theorem before1_2 (c : Dev nD) (t : Fin cfg1.N) (d) : (dat1 V c).before 2 t d = linIn V cfg1 c 2 t :=
  (dat1 V c).before_in_eq_fetched 2 rfl (fun _ => rfl) (fun _ _ _ => rfl) (fun t => congrArg _ (after1_2 V c t)) t d

theorem body_obligation1 (c : Dev nD) : BodyObligation (dat1 (F := F) V c) (defs₀ (F := F)) Variants.none () Set.univ := fun t => by
  rw [bigSep_W1, bigSep_W1]
  exact lin_body c (grid1.coords t) _ (hstage1_0 _) _ (hstage1_1 _) _ (hstage1_2 _) _ (hstage1_3 _)
    (before1_0 V c t) (before1_1 V c t) (before1_2 V c t) (after1_0 V c t) (after1_1 V c t) (after1_2 V c t) (after1_3 V c t) _ _

def dat2 (c : Dev nD) : Dat τ (Elt F) Unit ℕ (UR sig nD τ) ℕ cfg2 c where
  A w := V c (Pipeline.arrRef spec2 w)
  after w t := match w with
    | ⟨0, _⟩ => linIn V cfg2 c 0 t
    | ⟨1, _⟩ => linIn V cfg2 c 1 t
    | ⟨2, _⟩ => linIn V cfg2 c 2 t
    | ⟨3, _⟩ => linOut (linIn V cfg2 c 0 t) (linIn V cfg2 c 1 t) (linIn V cfg2 c 2 t)
  Φ _ := Pipeline.ΦA spec2 c
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = linIn V cfg2 c 0 t := by dsimp only [dat2]
theorem after2_1 (c : Dev nD) (t : Fin cfg2.N) : (dat2 V c).after 1 t = linIn V cfg2 c 1 t := by dsimp only [dat2]
theorem after2_2 (c : Dev nD) (t : Fin cfg2.N) : (dat2 V c).after 2 t = linIn V cfg2 c 2 t := by dsimp only [dat2]
theorem after2_3 (c : Dev nD) (t : Fin cfg2.N) :
    (dat2 V c).after 3 t = linOut (linIn V cfg2 c 0 t) (linIn V cfg2 c 1 t) (linIn V cfg2 c 2 t) := by dsimp only [dat2]

theorem before2_0 (c : Dev nD) (t : Fin cfg2.N) (d) : (dat2 V c).before 0 t d = linIn V cfg2 c 0 t :=
  (dat2 V c).before_in_eq_fetched 0 rfl (fun _ => rfl) (fun _ _ _ => rfl) (fun t => congrArg _ (after2_0 V c t)) t d
theorem before2_1 (c : Dev nD) (t : Fin cfg2.N) (d) : (dat2 V c).before 1 t d = linIn V cfg2 c 1 t :=
  (dat2 V c).before_in_eq_fetched 1 rfl (fun _ => rfl) (fun _ _ _ => rfl) (fun t => congrArg _ (after2_1 V c t)) t d
theorem before2_2 (c : Dev nD) (t : Fin cfg2.N) (d) : (dat2 V c).before 2 t d = linIn V cfg2 c 2 t :=
  (dat2 V c).before_in_eq_fetched 2 rfl (fun _ => rfl) (fun _ _ _ => rfl) (fun t => congrArg _ (after2_2 V c t)) t d

theorem body_obligation2 (c : Dev nD) : BodyObligation (dat2 (F := F) V c) (defs₀ (F := F)) Variants.none () Set.univ := fun t => by
  rw [bigSep_W2, bigSep_W2]
  exact lin_body c (grid2.coords t) _ (hstage2_0 _) _ (hstage2_1 _) _ (hstage2_2 _) _ (hstage2_3 _)
    (before2_0 V c t) (before2_1 V c t) (before2_2 V c t) (after2_0 V c t) (after2_1 V c t) (after2_2 V c t) (after2_3 V c t) _ _

def dat3 (c : Dev nD) : Dat τ (Elt F) Unit ℕ (UR sig nD τ) ℕ cfg3 c where
  A w := V c (Pipeline.arrRef spec3 w)
  after w t := match w with
    | ⟨0, _⟩ => linIn V cfg3 c 0 t
    | ⟨1, _⟩ => linIn V cfg3 c 1 t
    | ⟨2, _⟩ => linIn V cfg3 c 2 t
    | ⟨3, _⟩ => linOut (linIn V cfg3 c 0 t) (linIn V cfg3 c 1 t) (linIn V cfg3 c 2 t)
  Φ _ := Pipeline.ΦA spec3 c
  q _ := fullShare
  owed _ := 0

theorem A_eq3 (c : Dev nD) (w : Fin cfg3.W) : (dat3 V c).A w = V c (Pipeline.arrRef spec3 w) := rfl

theorem after3_0 (c : Dev nD) (t : Fin cfg3.N) : (dat3 V c).after 0 t = linIn V cfg3 c 0 t := by dsimp only [dat3]
theorem after3_1 (c : Dev nD) (t : Fin cfg3.N) : (dat3 V c).after 1 t = linIn V cfg3 c 1 t := by dsimp only [dat3]
theorem after3_2 (c : Dev nD) (t : Fin cfg3.N) : (dat3 V c).after 2 t = linIn V cfg3 c 2 t := by dsimp only [dat3]
theorem after3_3 (c : Dev nD) (t : Fin cfg3.N) :
    (dat3 V c).after 3 t = linOut (linIn V cfg3 c 0 t) (linIn V cfg3 c 1 t) (linIn V cfg3 c 2 t) := by dsimp only [dat3]

theorem before3_0 (c : Dev nD) (t : Fin cfg3.N) (d) : (dat3 V c).before 0 t d = linIn V cfg3 c 0 t :=
  (dat3 V c).before_in_eq_fetched 0 rfl (fun _ => rfl) (fun _ _ _ => rfl) (fun t => congrArg _ (after3_0 V c t)) t d
theorem before3_1 (c : Dev nD) (t : Fin cfg3.N) (d) : (dat3 V c).before 1 t d = linIn V cfg3 c 1 t :=
  (dat3 V c).before_in_eq_fetched 1 rfl (fun _ => rfl) (fun _ _ _ => rfl) (fun t => congrArg _ (after3_1 V c t)) t d
theorem before3_2 (c : Dev nD) (t : Fin cfg3.N) (d) : (dat3 V c).before 2 t d = linIn V cfg3 c 2 t :=
  (dat3 V c).before_in_eq_fetched 2 rfl (fun _ => rfl) (fun _ _ _ => rfl) (fun t => congrArg _ (after3_2 V c t)) t d

theorem body_obligation3 (c : Dev nD) : BodyObligation (dat3 (F := F) V c) (defs₀ (F := F)) Variants.none () Set.univ := fun t => by
  rw [bigSep_W3, bigSep_W3]
  exact lin_body c (grid3.coords t) _ (hstage3_0 _) _ (hstage3_1 _) _ (hstage3_2 _) _ (hstage3_3 _)
    (before3_0 V c t) (before3_1 V c t) (before3_2 V c t) (after3_0 V c t) (after3_1 V c t) (after3_2 V c t) (after3_3 V c t) _ _

def dat4 (c : Dev nD) : Dat τ (Elt F) Unit ℕ (UR sig nD τ) ℕ cfg4 c where
  A w := V c (Pipeline.arrRef spec4 w)
  after w t := match w with
    | ⟨0, _⟩ => linIn V cfg4 c 0 t
    | ⟨1, _⟩ => linIn V cfg4 c 1 t
    | ⟨2, _⟩ => linIn V cfg4 c 2 t
    | ⟨3, _⟩ => linOut (linIn V cfg4 c 0 t) (linIn V cfg4 c 1 t) (linIn V cfg4 c 2 t)
  Φ _ := Pipeline.ΦA spec4 c
  q _ := fullShare
  owed _ := 0

theorem A_eq4 (c : Dev nD) (w : Fin cfg4.W) : (dat4 V c).A w = V c (Pipeline.arrRef spec4 w) := rfl

theorem after4_0 (c : Dev nD) (t : Fin cfg4.N) : (dat4 V c).after 0 t = linIn V cfg4 c 0 t := by dsimp only [dat4]
theorem after4_1 (c : Dev nD) (t : Fin cfg4.N) : (dat4 V c).after 1 t = linIn V cfg4 c 1 t := by dsimp only [dat4]
theorem after4_2 (c : Dev nD) (t : Fin cfg4.N) : (dat4 V c).after 2 t = linIn V cfg4 c 2 t := by dsimp only [dat4]
theorem after4_3 (c : Dev nD) (t : Fin cfg4.N) :
    (dat4 V c).after 3 t = linOut (linIn V cfg4 c 0 t) (linIn V cfg4 c 1 t) (linIn V cfg4 c 2 t) := by dsimp only [dat4]

theorem before4_0 (c : Dev nD) (t : Fin cfg4.N) (d) : (dat4 V c).before 0 t d = linIn V cfg4 c 0 t :=
  (dat4 V c).before_in_eq_fetched 0 rfl (fun _ => rfl) (fun _ _ _ => rfl) (fun t => congrArg _ (after4_0 V c t)) t d
theorem before4_1 (c : Dev nD) (t : Fin cfg4.N) (d) : (dat4 V c).before 1 t d = linIn V cfg4 c 1 t :=
  (dat4 V c).before_in_eq_fetched 1 rfl (fun _ => rfl) (fun _ _ _ => rfl) (fun t => congrArg _ (after4_1 V c t)) t d
theorem before4_2 (c : Dev nD) (t : Fin cfg4.N) (d) : (dat4 V c).before 2 t d = linIn V cfg4 c 2 t :=
  (dat4 V c).before_in_eq_fetched 2 rfl (fun _ => rfl) (fun _ _ _ => rfl) (fun t => congrArg _ (after4_2 V c t)) t d

theorem body_obligation4 (c : Dev nD) : BodyObligation (dat4 (F := F) V c) (defs₀ (F := F)) Variants.none () Set.univ := fun t => by
  rw [bigSep_W4, bigSep_W4]
  exact lin_body c (grid4.coords t) _ (hstage4_0 _) _ (hstage4_1 _) _ (hstage4_2 _) _ (hstage4_3 _)
    (before4_0 V c t) (before4_1 V c t) (before4_2 V c t) (after4_0 V c t) (after4_1 V c t) (after4_2 V c t) (after4_3 V c t) _ _

def dat5 (c : Dev nD) : Dat τ (Elt F) Unit ℕ (UR sig nD τ) ℕ cfg5 c where
  A w := V c (Pipeline.arrRef spec5 w)
  after w t := match w with
    | ⟨0, _⟩ => linIn V cfg5 c 0 t
    | ⟨1, _⟩ => linIn V cfg5 c 1 t
    | ⟨2, _⟩ => linIn V cfg5 c 2 t
    | ⟨3, _⟩ => linOut (linIn V cfg5 c 0 t) (linIn V cfg5 c 1 t) (linIn V cfg5 c 2 t)
  Φ _ := Pipeline.ΦA spec5 c
  q _ := fullShare
  owed _ := 0

theorem A_eq5 (c : Dev nD) (w : Fin cfg5.W) : (dat5 V c).A w = V c (Pipeline.arrRef spec5 w) := rfl

theorem after5_0 (c : Dev nD) (t : Fin cfg5.N) : (dat5 V c).after 0 t = linIn V cfg5 c 0 t := by dsimp only [dat5]
theorem after5_1 (c : Dev nD) (t : Fin cfg5.N) : (dat5 V c).after 1 t = linIn V cfg5 c 1 t := by dsimp only [dat5]
theorem after5_2 (c : Dev nD) (t : Fin cfg5.N) : (dat5 V c).after 2 t = linIn V cfg5 c 2 t := by dsimp only [dat5]
theorem after5_3 (c : Dev nD) (t : Fin cfg5.N) :
    (dat5 V c).after 3 t = linOut (linIn V cfg5 c 0 t) (linIn V cfg5 c 1 t) (linIn V cfg5 c 2 t) := by dsimp only [dat5]

theorem before5_0 (c : Dev nD) (t : Fin cfg5.N) (d) : (dat5 V c).before 0 t d = linIn V cfg5 c 0 t :=
  (dat5 V c).before_in_eq_fetched 0 rfl (fun _ => rfl) (fun _ _ _ => rfl) (fun t => congrArg _ (after5_0 V c t)) t d
theorem before5_1 (c : Dev nD) (t : Fin cfg5.N) (d) : (dat5 V c).before 1 t d = linIn V cfg5 c 1 t :=
  (dat5 V c).before_in_eq_fetched 1 rfl (fun _ => rfl) (fun _ _ _ => rfl) (fun t => congrArg _ (after5_1 V c t)) t d
theorem before5_2 (c : Dev nD) (t : Fin cfg5.N) (d) : (dat5 V c).before 2 t d = linIn V cfg5 c 2 t :=
  (dat5 V c).before_in_eq_fetched 2 rfl (fun _ => rfl) (fun _ _ _ => rfl) (fun t => congrArg _ (after5_2 V c t)) t d

theorem body_obligation5 (c : Dev nD) : BodyObligation (dat5 (F := F) V c) (defs₀ (F := F)) Variants.none () Set.univ := fun t => by
  rw [bigSep_W5, bigSep_W5]
  exact lin_body c (grid5.coords t) _ (hstage5_0 _) _ (hstage5_1 _) _ (hstage5_2 _) _ (hstage5_3 _)
    (before5_0 V c t) (before5_1 V c t) (before5_2 V c t) (after5_0 V c t) (after5_1 V c t) (after5_2 V c t) (after5_3 V c t) _ _

end Cert.KernelIdeal.Hand

end
-- ==== Proof.KI.AttCore.lean ====
import proofs.«106974_j644245095138_1_alg».proof.Proof.Gen.KernelIdeal.Launch
import proofs.«106974_j644245095138_1_alg».proof.Proof.Gen.KernelIdeal.Skeleton
import proofs.«106974_j644245095138_1_alg».proof.Proof.Gen.KernelIdeal.Points
import Idealize.ShloMosaic.Lib.Pipeline.Value
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev rSq : Rect S1024x1024 := Rect.unit (s := S1024x1024) ![0, 0] S1024x1024.size inb_S1024x1024_S1024x1024_0_0
abbrev rKv : Rect S512x1024 := Rect.unit (s := S512x1024) ![0, 0] S512x1024.size inb_S512x1024_S512x1024_0_0
abbrev rP : Rect S1024x512 := Rect.unit (s := S1024x512) ![0, 0] S1024x512.size inb_S1024x512_S1024x512_0_0

def probs (q : Vec F S1024x1024 .bf16) (k : Vec F S512x1024 .bf16) : Vec F S1024x512 .f32 :=
  View.canon [⟨rP, k6_pay2 (View.ld q rSq) (View.ld k rKv)⟩]

def accZero : Vec F S1024x1024 .f32 := View.canon [⟨rSq, k6_pay1 (F := F)⟩]

def accStep (q : Vec F S1024x1024 .bf16) (k v : Vec F S512x1024 .bf16) (a : Vec F S1024x1024 .f32) : Vec F S1024x1024 .f32 :=
  View.canon [⟨rSq, k6_pay3 (View.ld q rSq) (View.ld k rKv) (View.ld v rKv) (View.ld a rSq)⟩]

def ctxOf (a : Vec F S1024x1024 .f32) : Vec F S1024x1024 .f32 := View.canon [⟨rSq, View.ld a rSq⟩]

-- The two attention kernels are the same program.
theorem kernel7_eq : cc7__cross_attn_kernel (F := F) = cc6__cross_attn_kernel (F := F) := rfl

theorem hz : (![0, 0] : Fin 2 → ℕ) = fun _ => 0 := funext fun a => by fin_cases a <;> rfl

theorem cover_sq (p0 : Vec F S1024x1024 .f32) (L : List (View.Piece (Elt F) S1024x1024 .f32)) (y : S1024x1024.Idx) :
    ∃ pc ∈ ((⟨rSq, p0⟩ : View.Piece (Elt F) S1024x1024 .f32) :: L), y ∈ pc.1.set :=
  ⟨_, List.mem_cons_self, View.mem_set_unit_zero hz inb_S1024x1024_S1024x1024_0_0 y⟩
theorem cover_p (p0 : Vec F S1024x512 .f32) (L : List (View.Piece (Elt F) S1024x512 .f32)) (y : S1024x512.Idx) :
    ∃ pc ∈ ((⟨rP, p0⟩ : View.Piece (Elt F) S1024x512 .f32) :: L), y ∈ pc.1.set :=
  ⟨_, List.mem_cons_self, View.mem_set_unit_zero hz inb_S1024x512_S1024x512_0_0 y⟩

theorem readCov_sq {κ : Kind} {sp : Space} (v : View sig κ sp S1024x1024 .f32) (w : Vec F S1024x1024 .f32)
    (L : List (View.Piece (Elt F) S1024x1024 .f32)) :
    v.readCov ((⟨rSq, w⟩ : View.Piece (Elt F) S1024x1024 .f32) :: L) rSq.toLoadRect = w := by
  rw [View.readCov_eq_canon_ld _ _ _ (cover_sq (F := F) w L), View.canon_cons_unit_zero (S := S1024x1024) hz,
    View.ld_unit_zero (S := S1024x1024) hz]

theorem accStep_zero (q : Vec F S1024x1024 .bf16) (k v : Vec F S512x1024 .bf16) :
    accStep q k v accZero = k6_pay3 (View.ld q rSq) (View.ld k rKv) (View.ld v rKv) (k6_pay1 (F := F)) := by
  unfold accStep accZero
  rw [View.canon_unit_zero (S := S1024x1024) hz, View.canon_unit_zero (S := S1024x1024) hz]
  exact congrArg (k6_pay3 (View.ld q rSq) (View.ld k rKv) (View.ld v rKv))
    (View.ld_unit_zero (S := S1024x1024) hz inb_S1024x1024_S1024x1024_0_0 _)

theorem accStep_eq (q : Vec F S1024x1024 .bf16) (k v : Vec F S512x1024 .bf16) (a : Vec F S1024x1024 .f32) :
    accStep q k v a = k6_pay3 (View.ld q rSq) (View.ld k rKv) (View.ld v rKv) (View.ld a rSq) := by
  unfold accStep
  rw [View.canon_unit_zero (S := S1024x1024) hz]

theorem ctxOf_eq (a : Vec F S1024x1024 .f32) : ctxOf a = a := by
  unfold ctxOf
  rw [View.canon_unit_zero (S := S1024x1024) hz, View.ld_unit_zero (S := S1024x1024) hz]

abbrev cond (i : grid6.Coords) : Prop :=
  (Scalar.cmpi .ne (Scalar.extui (Scalar.cmpi .eq (BitVec.ofNat 32 (i 1).val) 0#32)) 0#32) = 1#1
theorem hcond : ∀ t : Fin grid6.N, cond (grid6.coords t) ↔ t.val % 16 = 0 := by decide +kernel

set_option maxHeartbeats 1000000 in
-- One run of the body on whole memrefs: the scratch restarts from zero exactly where the branch is taken.
theorem sound_kernel (c : Dev nD) (E : Set ℕ) (i : grid6.Coords)
    (arg2 : Memref sig .tc .vmem S1024x1024 .bf16) (harg2 : arg2.IsWhole) (arg3 : Memref sig .tc .vmem S512x1024 .bf16) (harg3 : arg3.IsWhole)
    (arg4 : Memref sig .tc .vmem S512x1024 .bf16) (harg4 : arg4.IsWhole) (arg5 : Memref sig .tc .vmem S1024x512 .f32) (harg5 : arg5.IsWhole)
    (arg6 : Memref sig .tc .vmem S1024x1024 .f32) (harg6 : arg6.IsWhole) (arg7 : Memref sig .tc .vmem S1024x1024 .f32) (harg7 : arg7.IsWhole)
    (q : Vec F S1024x1024 .bf16) (k v : Vec F S512x1024 .bf16) (a : Vec F S1024x1024 .f32) (K : PUnit → sProp 𝕄) :
    iprop(owns (c : Thread nD τ) arg2 fullShare q ∗ owns (c : Thread nD τ) arg3 fullShare k ∗ owns (c : Thread nD τ) arg4 fullShare v
        ∗ (∃ d, owns (c : Thread nD τ) arg5 fullShare d) ∗ (∃ d, owns (c : Thread nD τ) arg6 fullShare d) ∗ owns (c : Thread nD τ) arg7 fullShare a
        ∗ (iprop(owns (c : Thread nD τ) arg2 fullShare q ∗ owns (c : Thread nD τ) arg3 fullShare k ∗ owns (c : Thread nD τ) arg4 fullShare v
            ∗ owns (c : Thread nD τ) arg5 fullShare (probs q k)
            ∗ owns (c : Thread nD τ) arg6 fullShare (ctxOf (accStep q k v (if cond i then accZero else a)))
            ∗ owns (c : Thread nD τ) arg7 fullShare (accStep q k v (if cond i then accZero else a))) -∗ K ⟨⟩))
      ⊢ wp frame (wpE (defs₀ (F := F)) Variants.none c none) E
          (cc6__cross_attn_kernel i arg2 harg2 arg3 harg3 arg4 harg4 arg5 harg5 arg6 harg6 arg7 harg7) K := by
  simp only [cc6__cross_attn_kernel_eq_skeleton]; unfold cc6__cross_attn_kernel_skel
  unfold owns
  by_cases hc : cond i
  case' pos => rw [if_pos hc]
  case' neg => rw [if_neg hc]
  all_goals
    iintro ⟨⟨%f0, %hf0, H0⟩, ⟨%f1, %hf1, H1⟩, ⟨%f2, %hf2, H2⟩, ⟨%d3, %f3, -, H3⟩, ⟨%d4, %f4, -, H4⟩, ⟨%f5, %hf5, H5⟩, Hk⟩
    subst hf0; subst hf1; subst hf2; subst hf5
    sl_exec (disch := first | exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      exact View.read_writes_eq_canon _ _ _ (cover_p (F := F) _ _)
    isplitl [H4]
    · iexists _; isplitr
      swap; · iexact H4
      ipureintro
      sl_unfold_words
      rw [View.read_writes_eq_canon _ _ _ (cover_sq (F := F) _ _), ctxOf_eq]
      first
        | rw [accStep_zero, View.canon_unit_zero (S := S1024x1024) hz, readCov_sq, readCov_sq]; rfl
        | rw [accStep_eq, View.canon_unit_zero (S := S1024x1024) hz, readCov_sq]; rfl
    iexists _; isplitr
    swap; · iexact H5
    ipureintro
    sl_unfold_words
    rw [View.read_writes_eq_canon _ _ _ (cover_sq (F := F) _ _)]
    first
      | rw [accStep_zero, View.canon_cons_unit_zero (S := S1024x1024) hz, readCov_sq]; rfl
      | rw [accStep_eq, View.canon_unit_zero (S := S1024x1024) hz]; rfl

-- The scratch after point n: restarted from zero at the points n ≡ 0 (mod 16), else carried on from point n - 1.
def accOf (qb : Fin grid6.N → Vec F S1024x1024 .bf16) (kb vb : Fin grid6.N → Vec F S512x1024 .bf16) :
    (n : ℕ) → n < grid6.N → Vec F S1024x1024 .f32
  | 0, h => accStep (qb ⟨0, h⟩) (kb ⟨0, h⟩) (vb ⟨0, h⟩) accZero
  | n + 1, h => accStep (qb ⟨n + 1, h⟩) (kb ⟨n + 1, h⟩) (vb ⟨n + 1, h⟩)
      (if (n + 1) % 16 = 0 then accZero else accOf qb kb vb n (Nat.lt_of_succ_lt h))

theorem accOf_eq (qb : Fin grid6.N → Vec F S1024x1024 .bf16) (kb vb : Fin grid6.N → Vec F S512x1024 .bf16) (t : Fin grid6.N) :
    accOf qb kb vb t.val t.isLt = accStep (qb t) (kb t) (vb t)
      (if t.val % 16 = 0 then accZero else accOf qb kb vb (t.val - 1) (Nat.lt_of_le_of_lt (Nat.sub_le _ _) t.isLt)) := by
  obtain ⟨n, hn⟩ := t
  cases n with
  | zero =>
    show accStep _ _ _ accZero = accStep _ _ _ (if 0 % 16 = 0 then accZero else _)
    rw [if_pos (Nat.zero_mod 16)]
  | succ n =>
    show accOf qb kb vb (n + 1) hn = _
    rw [accOf]
    rfl

-- What one run of the body leaves in the scratch at point t, from anything at t = 0 and from point t - 1's value after.
theorem accOf_run (qb : Fin grid6.N → Vec F S1024x1024 .bf16) (kb vb : Fin grid6.N → Vec F S512x1024 .bf16) (t : Fin grid6.N)
    (a : Vec F S1024x1024 .f32)
    (ha : t.val ≠ 0 → a = accOf qb kb vb (t.val - 1) (Nat.lt_of_le_of_lt (Nat.sub_le _ _) t.isLt)) :
    accStep (qb t) (kb t) (vb t) (if cond (grid6.coords t) then accZero else a) = accOf qb kb vb t.val t.isLt := by
  rw [accOf_eq]
  by_cases h0 : t.val % 16 = 0
  · rw [if_pos h0, if_pos ((hcond t).mpr h0)]
  · rw [if_neg h0, if_neg (fun h => h0 ((hcond t).mp h)), ha (fun e => h0 (by rw [e]))]

-- The invariant before point n: the scratch at some contents, the accumulator's after point n - 1 when n > 0, beside R.
def PhiOf (R : sProp 𝕄) (c : Dev nD) (m : Memref sig .tc .vmem S1024x1024 .f32)
    (acc : (n : ℕ) → n < grid6.N → Vec F S1024x1024 .f32) (n : ℕ) (h : n ≤ grid6.N) : sProp 𝕄 :=
  iprop(∃ a, ⌜∀ h0 : n ≠ 0, a = acc (n - 1) (by omega)⌝ ∗ owns (c : Thread nD τ) m fullShare a ∗ R)

theorem PhiOf_in (A R : sProp 𝕄) (c : Dev nD) (m : Memref sig .tc .vmem S1024x1024 .f32)
    (acc : (n : ℕ) → n < grid6.N → Vec F S1024x1024 .f32)
    (hA : A = iprop((∃ d, owns (c : Thread nD τ) m fullShare d) ∗ R)) : A ⊢ PhiOf R c m acc 0 (Nat.zero_le _) := by
  rw [hA]; unfold PhiOf
  iintro ⟨⟨%d, HS⟩, HR⟩
  iexists d
  isplitr; · ipureintro; exact fun h0 => absurd rfl h0
  isplitl [HS]; · iexact HS
  iexact HR

theorem PhiOf_out (A R : sProp 𝕄) (c : Dev nD) (m : Memref sig .tc .vmem S1024x1024 .f32)
    (acc : (n : ℕ) → n < grid6.N → Vec F S1024x1024 .f32)
    (hA : A = iprop((∃ d, owns (c : Thread nD τ) m fullShare d) ∗ R)) {n : ℕ} {h : n ≤ grid6.N} : PhiOf R c m acc n h ⊢ A := by
  rw [hA]; unfold PhiOf
  iintro ⟨%a, -, HS, HR⟩
  isplitl [HS]; · iexists a; iexact HS
  iexact HR

-- The body at point t, between the invariant before the point and after it, the windows' buffers on any whole memrefs.
theorem att_body (R O : sProp 𝕄) (c : Dev nD) (m : Memref sig .tc .vmem S1024x1024 .f32) (hm : m.IsWhole)
    (qb : Fin grid6.N → Vec F S1024x1024 .bf16) (kb vb : Fin grid6.N → Vec F S512x1024 .bf16) (t : Fin grid6.N)
    (arg2 : Memref sig .tc .vmem S1024x1024 .bf16) (harg2 : arg2.IsWhole) (arg3 : Memref sig .tc .vmem S512x1024 .bf16) (harg3 : arg3.IsWhole)
    (arg4 : Memref sig .tc .vmem S512x1024 .bf16) (harg4 : arg4.IsWhole) (arg5 : Memref sig .tc .vmem S1024x512 .f32) (harg5 : arg5.IsWhole)
    (arg6 : Memref sig .tc .vmem S1024x1024 .f32) (harg6 : arg6.IsWhole)
    {D0 D1 D2 D3 D4 : Type} (f3 : D3 → Vec F S1024x512 .f32) (f4 : D4 → Vec F S1024x1024 .f32) :
    iprop(PhiOf R c m (accOf qb kb vb) t.val (Nat.le_of_lt t.isLt) ∗ O
        ∗ (∃ _ : D0, owns (c : Thread nD τ) arg2 fullShare (qb t)) ∗ (∃ _ : D1, owns (c : Thread nD τ) arg3 fullShare (kb t))
        ∗ (∃ _ : D2, owns (c : Thread nD τ) arg4 fullShare (vb t))
        ∗ (∃ d, owns (c : Thread nD τ) arg5 fullShare (f3 d)) ∗ (∃ d, owns (c : Thread nD τ) arg6 fullShare (f4 d)))
      ⊢ wp frame (wpE (defs₀ (F := F)) Variants.none c none) Set.univ
          (cc6__cross_attn_kernel (grid6.coords t) arg2 harg2 arg3 harg3 arg4 harg4 arg5 harg5 arg6 harg6 m hm)
          (fun _ => iprop(PhiOf R c m (accOf qb kb vb) (t.val + 1) t.isLt ∗ O
            ∗ owns (c : Thread nD τ) arg2 fullShare (qb t) ∗ owns (c : Thread nD τ) arg3 fullShare (kb t)
            ∗ owns (c : Thread nD τ) arg4 fullShare (vb t) ∗ owns (c : Thread nD τ) arg5 fullShare (probs (qb t) (kb t))
            ∗ owns (c : Thread nD τ) arg6 fullShare (ctxOf (accOf qb kb vb t.val t.isLt)))) := by
  unfold PhiOf
  iintro ⟨⟨%a, %ha, HS, HR⟩, HO, ⟨%d0, H0⟩, ⟨%d1, H1⟩, ⟨%d2, H2⟩, ⟨%d3, H3⟩, ⟨%d4, H4⟩⟩
  rw [← accOf_run qb kb vb t a ha]
  iapply (sound_kernel c Set.univ _ _ _ _ _ _ _ _ _ _ _ _ _ (qb t) (kb t) (vb t) a _)
  isplitl [H0]; · iexact H0
  isplitl [H1]; · iexact H1
  isplitl [H2]; · iexact H2
  isplitl [H3]; · iexists _; iexact H3
  isplitl [H4]; · iexists _; iexact H4
  isplitl [HS]; · iexact HS
  iintro ⟨H0, H1, H2, H3, H4, HS⟩
  isplitl [HS HR]
  · iexists _
    isplitr; · ipureintro; exact fun _ => accOf_run qb kb vb t a ha
    isplitl [HS]; · iexact HS
    iexact HR
  isplitl [HO]; · iexact HO
  isplitl [H0]; · iexact H0
  isplitl [H1]; · iexact H1
  isplitl [H2]; · iexact H2
  isplitl [H3]; · iexact H3
  iexact H4

end Cert.KernelIdeal.Hand

end
-- ==== Proof.KI.Att.lean ====
import proofs.«106974_j644245095138_1_alg».proof.Proof.KI.AttCore

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev acc6 (c : Dev nD) : (n : ℕ) → n < cfg6.N → Vec F S1024x1024 .f32 :=
  accOf (iblk6 V c 0) (iblk6 V c 1) (iblk6 V c 2)

abbrev scM6 : Memref sig .tc .vmem S1024x1024 .f32 := Memref.whole cc6_scratch0

abbrev rest6 (c : Dev nD) : sProp 𝕄 :=
  iprop(Pipeline.scopedRestBut (Ix := Unit) (Name := ℕ) (U := UR sig nD τ) (Lvl := ℕ) (Val := Elt F) spec6 c [cc6_scratch0]
    ∗ (∃ r, prngReg c r))

def Phi6 (c : Dev nD) : (n : ℕ) → n ≤ cfg6.N → sProp 𝕄 :=
  PhiOf (rest6 (F := F) c) c scM6 (acc6 V c)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => probs (iblk6 V c 0 t) (iblk6 V c 1 t)
    | ⟨4, _⟩ => ctxOf (acc6 V c t.val t.isLt)
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = probs (iblk6 V c 0 t) (iblk6 V c 1 t) := by dsimp only [dat6]
theorem after6_4 (c : Dev nD) (t : Fin cfg6.N) : (dat6 V c).after 4 t = ctxOf (acc6 V c t.val t.isLt) := by dsimp only [dat6]

theorem PhiA6_eq (c : Dev nD) :
    (Pipeline.ΦA spec6 c : sProp 𝕄) = iprop((∃ d, owns (c : Thread nD τ) scM6 fullShare d) ∗ rest6 (F := F) c) := by
  unfold Pipeline.ΦA; rw [scopedRest6_split]; simp only [scM6, owns_whole]
  exact Idealize.SL.BI.Entails.antisymm Idealize.SL.BI.sep_assoc Idealize.SL.BI.sep_assoc'

theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)

theorem hin6 (c : Dev nD) : Pipeline.ΦA spec6 c ⊢ (dat6 V c).Φ 0 := PhiOf_in _ _ c scM6 _ (PhiA6_eq c)

theorem hout6 (c : Dev nD) : (dat6 V c).Φ (Fin.last cfg6.N) ⊢ Pipeline.ΦA spec6 c :=
  PhiOf_out _ _ c scM6 _ (PhiA6_eq c) (h := Nat.le_of_lt_succ (Fin.last cfg6.N).isLt)

theorem body_obligation6 (c : Dev nD) : BodyObligation (dat6 (F := F) V c) (defs₀ (F := F)) Variants.none () Set.univ := fun t => by
  rw [bigSep_W6, bigSep_W6]
  dsimp only
  simp only [before6_0, before6_1, before6_2]
  rw [show (dat6 V c).owesAt () t.succ = (dat6 V c).owesAt () t.castSucc from rfl,
    after6_0, after6_1, after6_2, after6_3, after6_4]
  show _ ⊢ wp _ _ _ (bodyAt6 t) _
  unfold bodyAt6
  exact att_body (rest6 (F := F) c) _ c scM6 _
    (iblk6 V c 0) (iblk6 V c 1) (iblk6 V c 2) t _ _ _ _ _ _ _ _ _ _ _ _

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev acc7 (c : Dev nD) : (n : ℕ) → n < cfg7.N → Vec F S1024x1024 .f32 :=
  accOf (iblk7 V c 0) (iblk7 V c 1) (iblk7 V c 2)

abbrev scM7 : Memref sig .tc .vmem S1024x1024 .f32 := Memref.whole cc7_scratch0

abbrev rest7 (c : Dev nD) : sProp 𝕄 :=
  iprop(Pipeline.scopedRestBut (Ix := Unit) (Name := ℕ) (U := UR sig nD τ) (Lvl := ℕ) (Val := Elt F) spec7 c [cc7_scratch0]
    ∗ (∃ r, prngReg c r))

def Phi7 (c : Dev nD) : (n : ℕ) → n ≤ cfg7.N → sProp 𝕄 :=
  PhiOf (rest7 (F := F) c) c scM7 (acc7 V c)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => probs (iblk7 V c 0 t) (iblk7 V c 1 t)
    | ⟨4, _⟩ => ctxOf (acc7 V c t.val t.isLt)
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = probs (iblk7 V c 0 t) (iblk7 V c 1 t) := by dsimp only [dat7]
theorem after7_4 (c : Dev nD) (t : Fin cfg7.N) : (dat7 V c).after 4 t = ctxOf (acc7 V c t.val t.isLt) := by dsimp only [dat7]

theorem PhiA7_eq (c : Dev nD) :
    (Pipeline.ΦA spec7 c : sProp 𝕄) = iprop((∃ d, owns (c : Thread nD τ) scM7 fullShare d) ∗ rest7 (F := F) c) := by
  unfold Pipeline.ΦA; rw [scopedRest7_split]; simp only [scM7, owns_whole]
  exact Idealize.SL.BI.Entails.antisymm Idealize.SL.BI.sep_assoc Idealize.SL.BI.sep_assoc'

theorem before7_0 (c : Dev nD) (t : Fin cfg7.N) (d) : (dat7 V c).before 0 t d = iblk7 V c 0 t :=
  ((dat7 V c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl)
    (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl)
    (fun t => by rw [after7_2]; unfold Dat.blockOf iblk7; rw [A_eq7]; try rfl) t d).trans
    (by unfold Dat.fetched Dat.blockOf iblk7; rw [A_eq7]; try rfl)

theorem hin7 (c : Dev nD) : Pipeline.ΦA spec7 c ⊢ (dat7 V c).Φ 0 := PhiOf_in _ _ c scM7 _ (PhiA7_eq c)

theorem hout7 (c : Dev nD) : (dat7 V c).Φ (Fin.last cfg7.N) ⊢ Pipeline.ΦA spec7 c :=
  PhiOf_out _ _ c scM7 _ (PhiA7_eq c) (h := Nat.le_of_lt_succ (Fin.last cfg7.N).isLt)

theorem body_obligation7 (c : Dev nD) : BodyObligation (dat7 (F := F) V c) (defs₀ (F := F)) Variants.none () Set.univ := fun t => by
  rw [bigSep_W7, bigSep_W7]
  dsimp only
  simp only [before7_0, before7_1, before7_2]
  rw [show (dat7 V c).owesAt () t.succ = (dat7 V c).owesAt () t.castSucc from rfl,
    after7_0, after7_1, after7_2, after7_3, after7_4]
  show _ ⊢ wp _ _ _ (bodyAt7 t) _
  unfold bodyAt7
  rw [kernel7_eq]
  exact att_body (rest7 (F := F) c) _ c scM7 _
    (iblk7 V c 0) (iblk7 V c 1) (iblk7 V c 2) t _ _ _ _ _ _ _ _ _ _ _ _

end Cert.KernelIdeal.Hand

end
-- ==== Proof.KI.Fold.lean ====
import proofs.«106974_j644245095138_1_alg».proof.Proof.KI.Lin
import proofs.«106974_j644245095138_1_alg».proof.Proof.KI.Att
import proofs.«106974_j644245095138_1_alg».proof.Proof.Gen.KernelIdeal.Regions
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev tcOf (W : Dev nD → Valuation τ sig (Elt F)) : (c : Dev nD) → (b : Ref sig .tc) → Buf (Elt F) ((c : Thread nD τ).loc b) :=
  fun c b => W c b

def datAt : (p : Fin 8) → ((c : Dev nD) → (b : Ref sig .tc) → Buf (Elt F) ((c : Thread nD τ).loc b)) → (c : Dev nD) →
    Dat τ (Elt F) Unit ℕ (UR sig nD τ) ℕ (Pipeline.pin (pcfgs (F := F)) adm p) c
  | ⟨0, _⟩ => dat0 | ⟨1, _⟩ => dat1 | ⟨2, _⟩ => dat2 | ⟨3, _⟩ => dat3
  | ⟨4, _⟩ => dat4 | ⟨5, _⟩ => dat5 | ⟨6, _⟩ => dat6 | ⟨7, _⟩ => dat7

/-- What region `p` leaves when entered at `W`: its arrays at what the region's run leaves in them, every other buffer as entered. -/
def leave (p : Fin 8) (W : Dev nD → Valuation τ sig (Elt F)) (c : Dev nD) : Valuation τ sig (Elt F) :=
  Pipeline.withArrays (Pipeline.pin (pcfgs (F := F)) adm p).spec c (W c)
    fun w => (datAt p (tcOf W) c).arrAt w (Pipeline.pin (pcfgs (F := F)) adm p).N

theorem leave_arr (p : Fin 8) (L : Pipeline.LaunchFacts (nD := nD) (τ := τ) cfgs p) (W : Dev nD → Valuation τ sig (Elt F)) (c : Dev nD)
    (w : Fin (Pipeline.pin (pcfgs (F := F)) adm p).W) :
    leave p W c (Proc.devRef .tc (Pipeline.arrRef (Pipeline.pin (pcfgs (F := F)) adm p).spec w))
      = (datAt p (tcOf W) c).arrAt w (Pipeline.pin (pcfgs (F := F)) adm p).N :=
  Pipeline.withArrays_arr (Pipeline.pin (pcfgs (F := F)) adm p).spec L.win.arr_inj c (W c) _ w

theorem leave_of_ne (p : Fin 8) (W : Dev nD → Valuation τ sig (Elt F)) (c : Dev nD) (b : Ref sig .tc)
    (hb : ∀ w, Pipeline.arrRef (Pipeline.pin (pcfgs (F := F)) adm p).spec w ≠ b) :
    leave p W c (Proc.devRef .tc b) = W c (Proc.devRef .tc b) :=
  Pipeline.withArrays_of_ne (Pipeline.pin (pcfgs (F := F)) adm p).spec c (W c) _ b hb

/-- An input array leaves the region as it entered. -/
theorem leave_in (p : Fin 8) (L : Pipeline.LaunchFacts (nD := nD) (τ := τ) cfgs p) (W : Dev nD → Valuation τ sig (Elt F)) (c : Dev nD)
    (w : Fin (Pipeline.pin (pcfgs (F := F)) adm p).W) (hw : ((Pipeline.pin (pcfgs (F := F)) adm p).win w).isOut = false)
    (hA : (datAt p (tcOf W) c).A w = tcOf W c (Pipeline.arrRef (Pipeline.pin (pcfgs (F := F)) adm p).spec w)) :
    leave p W c (Proc.devRef .tc (Pipeline.arrRef (Pipeline.pin (pcfgs (F := F)) adm p).spec w))
      = W c (Proc.devRef .tc (Pipeline.arrRef (Pipeline.pin (pcfgs (F := F)) adm p).spec w)) :=
  (leave_arr p L W c w).trans (((datAt p (tcOf W) c).arrAt_in w hw _).trans hA)

theorem host_keep {ops : List (HloOp τ sig (Elt F))} {Ws : List (Ref sig .tc)}
    (hws : ops.Forall fun op => op.writes ⊆ (Ws.map (Proc.devRef (τ := τ) .tc)).toFinset) (W : Valuation τ sig (Elt F)) (b : Ref sig .tc)
    (h1 : b ∉ Ws) : StableHlo.after ops W (Proc.devRef .tc b) = W (Proc.devRef .tc b) :=
  StableHlo.after_of_writes_sub ops _ hws h1

/-- A buffer that the host operations before the region do not write and that is no array of the region is as it was before both. -/
theorem keep (p : Fin 8) {ops : List (HloOp τ sig (Elt F))} {Ws : List (Ref sig .tc)}
    (hws : ops.Forall fun op => op.writes ⊆ (Ws.map (Proc.devRef (τ := τ) .tc)).toFinset)
    (W : Dev nD → Valuation τ sig (Elt F)) (c : Dev nD) (b : Ref sig .tc) (h1 : b ∉ Ws)
    (h2 : ∀ w, Pipeline.arrRef (Pipeline.pin (pcfgs (F := F)) adm p).spec w ≠ b) :
    leave p (fun c => StableHlo.after ops (W c)) c (Proc.devRef .tc b) = W c (Proc.devRef .tc b) :=
  (leave_of_ne p _ c b h2).trans (StableHlo.after_of_writes_sub ops _ hws h1)

variable (m : (ℓ : Loc nD τ sig) → Buf (Elt F) ℓ) (ρ : Dev nD → PrngReg)

abbrev WpostS : Dev nD → Valuation τ sig (Elt F) := fun c b => (s₀ m ρ).mem ((c : Dev nD), b)

abbrev Wpre0 : Dev nD → Valuation τ sig (Elt F) := fun c => StableHlo.after hostOps0 (WpostS m ρ c)
def Wpost0 : Dev nD → Valuation τ sig (Elt F) := leave 0 (Wpre0 m ρ)
abbrev Wpre1 : Dev nD → Valuation τ sig (Elt F) := fun c => StableHlo.after hostOps1 (Wpost0 m ρ c)
def Wpost1 : Dev nD → Valuation τ sig (Elt F) := leave 1 (Wpre1 m ρ)
abbrev Wpre2 : Dev nD → Valuation τ sig (Elt F) := fun c => StableHlo.after hostOps2 (Wpost1 m ρ c)
def Wpost2 : Dev nD → Valuation τ sig (Elt F) := leave 2 (Wpre2 m ρ)
abbrev Wpre3 : Dev nD → Valuation τ sig (Elt F) := fun c => StableHlo.after hostOps3 (Wpost2 m ρ c)
def Wpost3 : Dev nD → Valuation τ sig (Elt F) := leave 3 (Wpre3 m ρ)
abbrev Wpre4 : Dev nD → Valuation τ sig (Elt F) := fun c => StableHlo.after hostOps4 (Wpost3 m ρ c)
def Wpost4 : Dev nD → Valuation τ sig (Elt F) := leave 4 (Wpre4 m ρ)
abbrev Wpre5 : Dev nD → Valuation τ sig (Elt F) := fun c => StableHlo.after hostOps5 (Wpost4 m ρ c)
def Wpost5 : Dev nD → Valuation τ sig (Elt F) := leave 5 (Wpre5 m ρ)
def Wpost6 : Dev nD → Valuation τ sig (Elt F) := leave 6 (Wpost5 m ρ)
def Wpost7 : Dev nD → Valuation τ sig (Elt F) := leave 7 (Wpost6 m ρ)

/-- The eight regions' proof data, each at the contents its region is entered with. -/
def pdats : (p : Fin 8) → (c : Dev nD) → Dat τ (Elt F) Unit ℕ (UR sig nD τ) ℕ (Pipeline.pin (pcfgs (F := F)) adm p) c
  | ⟨0, _⟩ => datAt 0 (tcOf (Wpre0 m ρ)) | ⟨1, _⟩ => datAt 1 (tcOf (Wpre1 m ρ)) | ⟨2, _⟩ => datAt 2 (tcOf (Wpre2 m ρ))
  | ⟨3, _⟩ => datAt 3 (tcOf (Wpre3 m ρ)) | ⟨4, _⟩ => datAt 4 (tcOf (Wpre4 m ρ)) | ⟨5, _⟩ => datAt 5 (tcOf (Wpre5 m ρ))
  | ⟨6, _⟩ => datAt 6 (tcOf (Wpost5 m ρ)) | ⟨7, _⟩ => datAt 7 (tcOf (Wpost6 m ρ))

abbrev Lnone : GSem nD τ sig → Finset Unit := fun _ => ∅
abbrev lvnone : GSem nD τ sig → Unit → ℕ := fun _ _ => 0

/-- What rides beside the buffers through every item: the generator register at some state, and nothing owed. -/
abbrev Rest (c : Dev nD) : sProp 𝕄 := iprop((∃ r, prngReg c r) ∗ ∃ W, owes (c : Thread nD τ) (0 : CellTallies nD τ sig Unit) W)

abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lnone lvnone :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Reg.lean ====
import proofs.«106974_j644245095138_1_alg».proof.Proof.KI.Fold

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- A kernel region as an item of the program: every unscoped buffer is held at `Wpre` on entry and, on exit, at
    `Wpre` overwritten at the region's arrays by what its run leaves there. -/
def regOf (p : Fin 8) (L : Pipeline.LaunchFacts (nD := nD) (τ := τ) cfgs p) (Wpre : Dev nD → Valuation τ sig (Elt F))
    (hbody : ∀ c, BodyObligation (pdats m ρ p c) (defs₀ (F := F)) Variants.none () Set.univ)
    (hq : ∀ c w, (pdats m ρ p c).q w = fullShare) (howed : ∀ c t, (pdats m ρ p c).owed t = 0)
    (hrec : ∀ c t, (pdats m ρ p c).recorded t = Set.univ)
    (hA : ∀ c w, (pdats m ρ p c).A w = Wpre c (Pipeline.arrRef (Pipeline.pin (pcfgs (F := F)) adm p).spec w))
    (hin : ∀ c, Pipeline.ΦA (Pipeline.pin (pcfgs (F := F)) adm p).spec c ⊢ (pdats m ρ p c).Φ 0)
    (hout : ∀ c, (pdats m ρ p c).Φ (Fin.last _) ⊢ Pipeline.ΦA (Pipeline.pin (pcfgs (F := F)) adm p).spec c) :
    Pipeline.RegionSeg (pcfgs (F := F)) adm (pdats m ρ) () defs₀ Variants.none Lnone lvnone p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ Lnone lvnone p howed
  pre c := iprop(StableHlo.held (c : Thread nD τ) (Pipeline.ucRefs τ sig) (Wpre c) ∗ Rest c)
  post c := iprop(StableHlo.held (c : Thread nD τ) (Pipeline.ucRefs τ sig)
    (Pipeline.withArrays (Pipeline.pin (pcfgs (F := F)) adm p).spec c (Wpre c) fun w => (pdats m ρ p c).arrAt w (Pipeline.pin (pcfgs (F := F)) adm p).N) ∗ Rest c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Wpre c b)
  hentry c := by
    rw [Pipeline.ownSems0_none]
    have hsplit := Pipeline.arrays_of_unscopedBufs (p := p) (pcfgs (F := F)) adm (pdats m ρ) L.win L.arr_whole c
      ((pdats m ρ p c).share_full (hq c)) (fun b => Wpre c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun _ _ => Or.inl (hrec c 0 ▸ trivial)
      iexact HO
    isplitl [Hp]; · iexact Hp
    iexact Hrest
  hin c := by
    refine (?_ : _ ⊢ Pipeline.ΦA (Pipeline.pin (pcfgs (F := F)) adm p).spec c).trans (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c (pdats m ρ) ((pdats m ρ p c).share_full (hq c)) (fun b => Wpre c b)
      (fun b => Pipeline.withArrays (Pipeline.pin (pcfgs (F := F)) adm p).spec c (Wpre c) (fun w => (pdats m ρ p c).arrAt w (Pipeline.pin (pcfgs (F := F)) adm p).N) b)
      ((pdats m ρ p c).arrAt · (Pipeline.pin (pcfgs (F := F)) adm p).N)
      (fun w => (Pipeline.withArrays_arr (Pipeline.pin (pcfgs (F := F)) adm p).spec L.win.arr_inj c (Wpre c)
        (fun w => (pdats m ρ p c).arrAt w (Pipeline.pin (pcfgs (F := F)) adm p).N) w).symm)
      (fun b hb => Pipeline.withArrays_of_ne (Pipeline.pin (pcfgs (F := F)) adm p).spec c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

def reg0 : Pipeline.RegionSeg (pcfgs (F := F)) adm (pdats m ρ) () defs₀ Variants.none Lnone lvnone 0 :=
  regOf m ρ 0 launch0 (Wpre0 m ρ) (body_obligation0 (tcOf (Wpre0 m ρ))) (fun _ _ => rfl) (fun _ _ => rfl) (fun _ _ => rfl)
    (fun _ _ => rfl) (fun _ => .rfl) (fun _ => .rfl)

def reg1 : Pipeline.RegionSeg (pcfgs (F := F)) adm (pdats m ρ) () defs₀ Variants.none Lnone lvnone 1 :=
  regOf m ρ 1 launch1 (Wpre1 m ρ) (body_obligation1 (tcOf (Wpre1 m ρ))) (fun _ _ => rfl) (fun _ _ => rfl) (fun _ _ => rfl)
    (fun _ _ => rfl) (fun _ => .rfl) (fun _ => .rfl)

def reg2 : Pipeline.RegionSeg (pcfgs (F := F)) adm (pdats m ρ) () defs₀ Variants.none Lnone lvnone 2 :=
  regOf m ρ 2 launch2 (Wpre2 m ρ) (body_obligation2 (tcOf (Wpre2 m ρ))) (fun _ _ => rfl) (fun _ _ => rfl) (fun _ _ => rfl)
    (fun _ _ => rfl) (fun _ => .rfl) (fun _ => .rfl)

def reg3 : Pipeline.RegionSeg (pcfgs (F := F)) adm (pdats m ρ) () defs₀ Variants.none Lnone lvnone 3 :=
  regOf m ρ 3 launch3 (Wpre3 m ρ) (body_obligation3 (tcOf (Wpre3 m ρ))) (fun _ _ => rfl) (fun _ _ => rfl) (fun _ _ => rfl)
    (fun _ _ => rfl) (fun _ => .rfl) (fun _ => .rfl)

def reg4 : Pipeline.RegionSeg (pcfgs (F := F)) adm (pdats m ρ) () defs₀ Variants.none Lnone lvnone 4 :=
  regOf m ρ 4 launch4 (Wpre4 m ρ) (body_obligation4 (tcOf (Wpre4 m ρ))) (fun _ _ => rfl) (fun _ _ => rfl) (fun _ _ => rfl)
    (fun _ _ => rfl) (fun _ => .rfl) (fun _ => .rfl)

def reg5 : Pipeline.RegionSeg (pcfgs (F := F)) adm (pdats m ρ) () defs₀ Variants.none Lnone lvnone 5 :=
  regOf m ρ 5 launch5 (Wpre5 m ρ) (body_obligation5 (tcOf (Wpre5 m ρ))) (fun _ _ => rfl) (fun _ _ => rfl) (fun _ _ => rfl)
    (fun _ _ => rfl) (fun _ => .rfl) (fun _ => .rfl)

def reg6 : Pipeline.RegionSeg (pcfgs (F := F)) adm (pdats m ρ) () defs₀ Variants.none Lnone lvnone 6 :=
  regOf m ρ 6 launch6 (Wpost5 m ρ) (body_obligation6 (tcOf (Wpost5 m ρ))) (fun _ _ => rfl) (fun _ _ => rfl) (fun _ _ => rfl)
    (fun _ _ => rfl) (hin6 (tcOf (Wpost5 m ρ))) (hout6 (tcOf (Wpost5 m ρ)))

def reg7 : Pipeline.RegionSeg (pcfgs (F := F)) adm (pdats m ρ) () defs₀ Variants.none Lnone lvnone 7 :=
  regOf m ρ 7 launch7 (Wpost6 m ρ) (body_obligation7 (tcOf (Wpost6 m ρ))) (fun _ _ => rfl) (fun _ _ => rfl) (fun _ _ => rfl)
    (fun _ _ => rfl) (hin7 (tcOf (Wpost6 m ρ))) (hout7 (tcOf (Wpost6 m ρ)))

end Cert.KernelIdeal.Hand

end
-- ==== Proof.KI.Launch.lean ====
import proofs.«106974_j644245095138_1_alg».proof.Proof.KI.Reg

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's items in order: six stretches of host operations, each before its projection region, then the two attention regions. -/
abbrev items : List (Pipeline.Seg (pcfgs (F := F)) adm (pdats m ρ) () defs₀ Variants.none Lnone lvnone) :=
  [ .host (hostItem hostOps0 hostOps0_sub hostOps0_fresh (WpostS m ρ)),
    .region (reg0 m ρ),
    .host (hostItem hostOps1 hostOps1_sub hostOps1_fresh (Wpost0 m ρ)),
    .region (reg1 m ρ),
    .host (hostItem hostOps2 hostOps2_sub hostOps2_fresh (Wpost1 m ρ)),
    .region (reg2 m ρ),
    .host (hostItem hostOps3 hostOps3_sub hostOps3_fresh (Wpost2 m ρ)),
    .region (reg3 m ρ),
    .host (hostItem hostOps4 hostOps4_sub hostOps4_fresh (Wpost3 m ρ)),
    .region (reg4 m ρ),
    .host (hostItem hostOps5 hostOps5_sub hostOps5_fresh (Wpost4 m ρ)),
    .region (reg5 m ρ),
    .region (reg6 m ρ),
    .region (reg7 m ρ) ]

theorem main_run (c : Dev nD) : main (F := F) c = Pipeline.Seg.run (items m ρ) := (main_chain c).trans (by chain_rfl)

abbrev Tend (c : Dev nD) : sProp 𝕄 := iprop(StableHlo.held (c : Thread nD τ) (Pipeline.ucRefs τ sig) (Wpost7 m ρ c) ∗ ∃ r, prngReg c r)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = Wpost7 m ρ c b) :=
  Pipeline.θ_run_regions_kit (pcfgs (F := F)) adm (pdats m ρ) () cellOf_inj emb₁ defs₀ Variants.none Lnone lvnone m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WpostS m ρ c) ∗ Rest c)) (Tₙ := Tend m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (Wpost7 m ρ c) ∗ Rest c)
          ⊢ iprop(Tend m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach Lnone lvnone fun c => ?_
      rw [show unscopedBufs c (fun b => m ((c : Thread nD τ).loc b)) = StableHlo.held (c : Thread nD τ) (Pipeline.ucRefs τ sig) (WpostS m ρ c)
        from Pipeline.unscopedBufs_held c (WpostS m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wpost7 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wpost7 m ρ c) s')
      isplitl [Hh] <;> iassumption)
    (hQ := fun s h => h)

end Cert.KernelIdeal.Hand

end
-- ==== Proof.KI.Args.lean ====
import proofs.«106974_j644245095138_1_alg».proof.Proof.KI.Launch

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) :=
  [main_arg0, main_arg1, main_arg2, main_arg3, main_arg4, main_arg5, main_arg6, main_arg7, main_arg8, main_arg9,
   main_arg10, main_arg11, main_arg12, main_arg13]

theorem arg_not_host : ∀ b ∈ argRefs, b ∉ hostOps0_W ∧ b ∉ hostOps1_W ∧ b ∉ hostOps2_W ∧ b ∉ hostOps3_W ∧ b ∉ hostOps4_W ∧ b ∉ hostOps5_W := by
  decide

theorem arg_not_arr0 : ∀ b ∈ argRefs, ∀ w : Fin cfg0.W, Pipeline.arrRef spec0 w ≠ b := by decide
theorem arg_not_arr1 : ∀ b ∈ argRefs, ∀ w : Fin cfg1.W, Pipeline.arrRef spec1 w ≠ b := by decide
theorem arg_not_arr2 : ∀ b ∈ argRefs, ∀ w : Fin cfg2.W, Pipeline.arrRef spec2 w ≠ b := by decide
theorem arg_not_arr3 : ∀ b ∈ argRefs, ∀ w : Fin cfg3.W, Pipeline.arrRef spec3 w ≠ b := by decide
theorem arg_not_arr4 : ∀ b ∈ argRefs, ∀ w : Fin cfg4.W, Pipeline.arrRef spec4 w ≠ b := by decide
theorem arg_not_arr5 : ∀ b ∈ argRefs, ∀ w : Fin cfg5.W, Pipeline.arrRef spec5 w ≠ b := by decide
theorem arg_not_arr6 : ∀ b ∈ argRefs, ∀ w : Fin cfg6.W, Pipeline.arrRef spec6 w ≠ b := by decide
theorem arg_not_arr7 : ∀ b ∈ argRefs, ∀ w : Fin cfg7.W, Pipeline.arrRef spec7 w ≠ b := by decide

/-- No item writes an argument array: it holds its launch contents after the last one. -/
theorem arg_kept (c : Dev nD) (b : Ref sig .tc) (hb : b ∈ argRefs) :
    Wpost7 m ρ c (Proc.devRef .tc b) = m ((c : Thread nD τ).loc b) :=
  have hh := arg_not_host b hb
  (leave_of_ne 7 (Wpost6 m ρ) c b (arg_not_arr7 b hb)).trans <| (leave_of_ne 6 (Wpost5 m ρ) c b (arg_not_arr6 b hb)).trans <|
  (keep 5 hostOps5_writes (Wpost4 m ρ) c b hh.2.2.2.2.2 (arg_not_arr5 b hb)).trans <| (keep 4 hostOps4_writes (Wpost3 m ρ) c b hh.2.2.2.2.1 (arg_not_arr4 b hb)).trans <|
  (keep 3 hostOps3_writes (Wpost2 m ρ) c b hh.2.2.2.1 (arg_not_arr3 b hb)).trans <| (keep 2 hostOps2_writes (Wpost1 m ρ) c b hh.2.2.1 (arg_not_arr2 b hb)).trans <|
  (keep 1 hostOps1_writes (Wpost0 m ρ) c b hh.2.1 (arg_not_arr1 b hb)).trans <| (keep 0 hostOps0_writes (WpostS m ρ) c b hh.1 (arg_not_arr0 b hb)).trans rfl

/-- Every argument array of core `c` holds in `mem` what it held at launch. -/
abbrev ArgsKept (c : Dev nD) (mem : (ℓ : Loc nD τ sig) → Buf (Elt F) ℓ) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)

theorem args_of_all (c : Dev nD) (mem : (ℓ : Loc nD τ sig) → Buf (Elt F) ℓ)
    (h : ∀ b ∈ Pipeline.ucRefs τ sig, mem (((c : Thread nD τ)).1, b) = Wpost7 m ρ c b) : ArgsKept m c mem :=
  ⟨(h _ (mem_uc main_arg0 (by decide))).trans (arg_kept m ρ c main_arg0 (by decide)),
   (h _ (mem_uc main_arg1 (by decide))).trans (arg_kept m ρ c main_arg1 (by decide)),
   (h _ (mem_uc main_arg2 (by decide))).trans (arg_kept m ρ c main_arg2 (by decide)),
   (h _ (mem_uc main_arg3 (by decide))).trans (arg_kept m ρ c main_arg3 (by decide)),
   (h _ (mem_uc main_arg4 (by decide))).trans (arg_kept m ρ c main_arg4 (by decide)),
   (h _ (mem_uc main_arg5 (by decide))).trans (arg_kept m ρ c main_arg5 (by decide)),
   (h _ (mem_uc main_arg6 (by decide))).trans (arg_kept m ρ c main_arg6 (by decide)),
   (h _ (mem_uc main_arg7 (by decide))).trans (arg_kept m ρ c main_arg7 (by decide)),
   (h _ (mem_uc main_arg8 (by decide))).trans (arg_kept m ρ c main_arg8 (by decide)),
   (h _ (mem_uc main_arg9 (by decide))).trans (arg_kept m ρ c main_arg9 (by decide)),
   (h _ (mem_uc main_arg10 (by decide))).trans (arg_kept m ρ c main_arg10 (by decide)),
   (h _ (mem_uc main_arg11 (by decide))).trans (arg_kept m ρ c main_arg11 (by decide)),
   (h _ (mem_uc main_arg12 (by decide))).trans (arg_kept m ρ c main_arg12 (by decide)),
   (h _ (mem_uc main_arg13 (by decide))).trans (arg_kept m ρ c main_arg13 (by decide))⟩

/-- Every weakly fair execution of the program terminates, faulting nowhere, with every argument array as launched. -/
theorem frame : θ_run defs (onTc (τ := τ) (main (F := F))) ⟨m, fun _ => 0, ρ⟩ (fun r => ∀ c : Dev nD, ArgsKept m c r.2.mem) :=
  (θ_run defs _ _).mono (fun r h c => args_of_all m ρ c r.2.mem (h c)) (run_all m ρ)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Srd : Shape := ⟨2, ![8192, 1024]⟩

abbrev Sw : Shape := ⟨2, ![1024, 1024]⟩

abbrev Sb : Shape := ⟨1, ![1024]⟩

abbrev Sb1 : Shape := ⟨2, ![1, 1024]⟩

abbrev Sqk : Shape := ⟨2, ![8192, 8192]⟩

abbrev scale : EReal := Ideal.ofBits .f32 0x3D000000#32

def linRow (x : Srd.Idx → EReal) (W : Sw.Idx → EReal) (b : Sb1.Idx → EReal) : Srd.Idx → EReal :=
  fun i => (∑ k : Fin 1024, x (ix2 (i 0) k) * W (ix2 k (i 1))) + b (ix2 (0 : Fin 1) (i 1))

def lin (x : Srd.Idx → EReal) (W : Sw.Idx → EReal) (b : Sb.Idx → EReal) : Srd.Idx → EReal :=
  fun i => (∑ k : Fin 1024, x (ix2 (i 0) k) * W (ix2 k (i 1))) + b (ix1 (i 1))

def gate (q k : Srd.Idx → EReal) : Sqk.Idx → EReal :=
  fun i => Ideal.logistic ((∑ d : Fin 1024, q (ix2 (i 0) d) * k (ix2 (i 1) d)) * scale)

def ctx (p : Sqk.Idx → EReal) (v : Srd.Idx → EReal) : Srd.Idx → EReal :=
  fun i => ∑ n : Fin 8192, p (ix2 (i 0) n) * v (ix2 n (i 1))

end Cert.Spec

end
-- ==== Proof.LibPlainDot.lean ====
import Idealize.ShloMosaic.Lib.Pipeline.Value
import Idealize.ShloMosaic.Lib.ValueIdx
import Idealize.ShloMosaic.PureOps.Ideal.Laws

noncomputable section

namespace Cert.LibPlainDot

open Idealize.ShloMosaic Idealize.ShloMosaic.ValueIdx

theorem matmul_plain_apply {φ₁ φ₂ : FTy} (M K N : Nat) (lhs : FVec Ideal ⟨2, ![M, K]⟩ φ₁) (rhs : FVec Ideal ⟨2, ![K, N]⟩ φ₂)
    (r : Fin M) (c : Fin N) :
    matmul (DotDims.plain M K N) none lhs rhs (constant ⟨2, ![M, N]⟩ .f32 0x00000000#32) (ix2 r c)
      = ∑ k : Fin K, lhs (ix2 r k) * rhs (ix2 k c) := by
  show FloatOps.matmul (DotDims.plain M K N) none lhs rhs (constant ⟨2, ![M, N]⟩ .f32 0x00000000#32) (ix2 r c) = _
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((ValueIdx.contrEquiv1 (DotDims.plain M K N) K rfl rfl).symm k) = ix2 k c :=
    funext fun a => Fin.ext (by
      match a with
      | ⟨0, _⟩ => exact hk
      | ⟨1, _⟩ => rfl)
  rw [el, er]

theorem slice2_apply {α : Type} {M N M' N' : Nat} (o0 o1 : Nat) (x : (⟨2, ![M, N]⟩ : Shape).Idx → α)
    (h : (⟨2, ![M, N]⟩ : Shape).Slices ![o0, o1] ⟨2, ![M', N']⟩) (r : Fin M') (c : Fin N')
    (hr : o0 + r.val < M) (hc : o1 + c.val < N) :
    extractStridedSlice ⟨2, ![M', N']⟩ ![o0, o1] x h (ix2 r c) = x (ix2 ⟨o0 + r.val, hr⟩ ⟨o1 + c.val, hc⟩) :=
  extractStridedSlice_apply ![o0, o1] x h (ix2 r c) (ix2 ⟨o0 + r.val, hr⟩ ⟨o1 + c.val, hc⟩) (fun a => match a with
    | ⟨0, _⟩ => rfl
    | ⟨1, _⟩ => rfl)

theorem bcastRow_apply {α : Type} {M N : Nat} (x : (⟨2, ![1, N]⟩ : Shape).Idx → α)
    (h : (⟨2, ![1, N]⟩ : Shape).Broadcasts ⟨2, ![M, N]⟩) (r : Fin M) (c : Fin N) :
    broadcastTo ⟨2, ![M, N]⟩ x h (ix2 r c) = x (ix2 ⟨0, Nat.one_pos⟩ c) :=
  broadcastTo_apply x h (ix2 r c) (ix2 ⟨0, Nat.one_pos⟩ c) (fun a => match a with
    | ⟨0, _⟩ => by show (0 : Nat) = if (1 : Nat) = 1 then 0 else r.val; rw [if_pos rfl]
    | ⟨1, _⟩ => by
        show c.val = if N = 1 then 0 else c.val
        by_cases hN : N = 1
        · rw [if_pos hN]; have := c.isLt; omega
        · rw [if_neg hN])

theorem shapeCast_midUnit_apply {α : Type} {M N : Nat} (x : (⟨2, ![M, N]⟩ : Shape).Idx → α)
    (h : (⟨2, ![M, N]⟩ : Shape).ShapeCasts ⟨3, ![M, 1, N]⟩) (r : Fin M) (z : Fin 1) (c : Fin N) :
    shapeCast ⟨3, ![M, 1, N]⟩ x h (ix3 r z c) = x (ix2 r c) :=
  shapeCast_apply x h (ix3 r z c) (ix2 r c) (by
    rw [Shape.rowMajor_val_two, Shape.rowMajor_val_three]
    have hz : z.val = 0 := by have := z.isLt; omega
    show r.val * N + c.val = (r.val * 1 + z.val) * N + c.val
    rw [hz, Nat.mul_one, Nat.add_zero])

end Cert.LibPlainDot

end
-- ==== Proof.KI.LinVal.lean ====
import proofs.«106974_j644245095138_1_alg».proof.Proof.KI.Lin
import proofs.«106974_j644245095138_1_alg».proof.Proof.Spec
import proofs.«106974_j644245095138_1_alg».proof.Proof.LibPlainDot
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

/-- On extended reals a change of format is the identity: at (r, d) the block is row r against column d, plus the one-row block's entry at d. -/
theorem linOut_apply (x W : Vec Ideal S1024x1024 .bf16) (b : Vec Ideal S1x1024 .f32) (r d : Fin 1024) :
    linOut (F := Ideal) x W b (ix2 r d) = (∑ k : Fin 1024, x (ix2 r k) * W (ix2 k d)) + b (ix2 (0 : Fin 1) d) := by
  have z : (![0, 0] : Fin 2 → Nat) = fun _ => 0 := funext fun a => by fin_cases a <;> rfl
  unfold linOut k0_pay1
  rw [View.canon_unit_zero z]
  simp only [View.ld_unit_zero (S := S1024x1024) z, View.ld_unit_zero (S := S1x1024) z]
  rw [truncf_apply, addf_apply, shapeCast_self, shapeCast_self, shapeCast_self]
  exact congrArg₂ (· + ·) (Cert.LibPlainDot.matmul_plain_apply 1024 1024 1024 x W r d)
    (Cert.LibPlainDot.bcastRow_apply b broadcasts_S1x1024_S1024x1024 r d)

/-- Block indices over the 8 points: windows 0 and 3 at block row `t`, block column 0; windows 1 and 2 at block (0, 0). -/
theorem lin_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lin_row_lt (t : Fin cfg0.N) (p : Fin 1024) : t.val * 1024 + p.val < 8192 := by
  have ht : t.val < 8 := t.isLt
  have hp := p.isLt
  omega

theorem lin_oblk (t : Fin cfg0.N) (p q : Fin 1024) :
    ((cfg0.win 3).blk t).view.emb (ix2 p q) = ix2 (⟨t.val * 1024 + p.val, lin_row_lt t p⟩ : Fin 8192) q := by
  obtain ⟨-, -, -, -, -, -, e0, e1⟩ := lin_idx t
  exact Shape.idx_ext₂ (by show win0_3.index t (0 : Fin 2) * 1024 + 1 * p.val = t.val * 1024 + p.val; omega)
    (by show win0_3.index t (1 : Fin 2) * 1024 + 1 * q.val = q.val; omega)

theorem lin_xblk (A : S8192x1024.Idx → EReal) (t : Fin cfg0.N) (p k : Fin 1024) :
    ((cfg0.win 0).blk t).view.read (Elt Ideal) A (ix2 p k) = A (ix2 (⟨t.val * 1024 + p.val, lin_row_lt t p⟩ : Fin 8192) k) := by
  obtain ⟨e0, e1, -⟩ := lin_idx t
  show A (((cfg0.win 0).blk t).view.emb (ix2 p k)) = _
  exact congrArg A (Shape.idx_ext₂ (by show win0_0.index t (0 : Fin 2) * 1024 + 1 * p.val = t.val * 1024 + p.val; omega)
    (by show win0_0.index t (1 : Fin 2) * 1024 + 1 * k.val = k.val; omega))

theorem lin_wblk (A : S1024x1024.Idx → EReal) (t : Fin cfg0.N) (k d : Fin 1024) :
    ((cfg0.win 1).blk t).view.read (Elt Ideal) A (ix2 k d) = A (ix2 k d) := by
  obtain ⟨-, -, e0, e1, -⟩ := lin_idx t
  show A (((cfg0.win 1).blk t).view.emb (ix2 k d)) = _
  exact congrArg A (Shape.idx_ext₂ (by show win0_1.index t (0 : Fin 2) * 1024 + 1 * k.val = k.val; omega)
    (by show win0_1.index t (1 : Fin 2) * 1024 + 1 * d.val = d.val; omega))

theorem lin_bblk (A : S1x1024.Idx → EReal) (t : Fin cfg0.N) (z : Fin 1) (d : Fin 1024) :
    ((cfg0.win 2).blk t).view.read (Elt Ideal) A (ix2 z d) = A (ix2 z d) := by
  obtain ⟨-, -, -, -, e0, e1, -⟩ := lin_idx t
  show A (((cfg0.win 2).blk t).view.emb (ix2 z d)) = _
  exact congrArg A (Shape.idx_ext₂ (by show win0_2.index t (0 : Fin 2) * 1 + 1 * z.val = z.val; omega)
    (by show win0_2.index t (1 : Fin 2) * 1024 + 1 * d.val = d.val; omega))

/-- Block `t` of the projection of three arrays is `linOut` of their blocks at `t`: rows 1024 t … of the first, all of the other two. -/
theorem lin_block (A0 : S8192x1024.Idx → EReal) (A1 : S1024x1024.Idx → EReal) (A2 : S1x1024.Idx → EReal) (t : Fin cfg0.N) :
    linOut (F := Ideal) (((cfg0.win 0).blk t).view.read (Elt Ideal) A0) (((cfg0.win 1).blk t).view.read (Elt Ideal) A1)
        (((cfg0.win 2).blk t).view.read (Elt Ideal) A2)
      = ((cfg0.win 3).blk t).view.read (Elt Ideal) (Cert.Spec.linRow A0 A1 A2) := by
  funext j
  obtain ⟨p, q, rfl⟩ : ∃ (p : Fin 1024) (q : Fin 1024), j = ix2 p q := ⟨j 0, j 1, eq_ix2 j⟩
  rw [linOut_apply]
  show _ = Cert.Spec.linRow A0 A1 A2 (((cfg0.win 3).blk t).view.emb (ix2 p q))
  rw [lin_oblk]
  exact congrArg₂ (· + ·) (Finset.sum_congr rfl fun k _ => congrArg₂ (· * ·) (lin_xblk A0 t p k) (lin_wblk A1 t k q))
    (lin_bblk A2 t 0 q)

theorem lin_mem_oblk (t : Fin cfg0.N) (i : S8192x1024.Idx) :
    i ∈ ((cfg0.win 3).blk t).view.set ↔ ∀ a : Fin 2, win0_3.index t a * S1024x1024.size a ≤ (i a).val
      ∧ (i a).val < win0_3.index t a * S1024x1024.size a + S1024x1024.size a := by
  show (i : ((View.whole (Pipeline.arrRef spec0 3)).slice (win0_3.rect t)).ty.Idx)
    ∈ ((View.whole (Pipeline.arrRef spec0 3)).slice (win0_3.rect t)).set ↔ _
  rw [View.set_slice_whole, Rect.mem_set_unit]
  exact Iff.rfl

/-- Row `r` of the array lies in the output block of point `r / 1024`. -/
theorem lin_cover (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have ht8 : (i 0).val / 1024 < 8 := by omega
  obtain ⟨-, -, -, -, -, -, e0, e1⟩ := lin_idx ⟨(i 0).val / 1024, ht8⟩
  have e0' : win0_3.index ⟨(i 0).val / 1024, ht8⟩ (0 : Fin 2) = (i 0).val / 1024 := e0
  refine ⟨⟨(i 0).val / 1024, ht8⟩, flush0_3 _, (lin_mem_oblk _ i).mpr fun a => ?_⟩
  match a with
  | ⟨0, _⟩ =>
    show win0_3.index ⟨(i 0).val / 1024, ht8⟩ (0 : Fin 2) * 1024 ≤ (i 0).val
      ∧ (i 0).val < win0_3.index ⟨(i 0).val / 1024, ht8⟩ (0 : Fin 2) * 1024 + 1024
    omega
  | ⟨1, _⟩ =>
    show win0_3.index ⟨(i 0).val / 1024, ht8⟩ (1 : Fin 2) * 1024 ≤ (i 1).val
      ∧ (i 1).val < win0_3.index ⟨(i 0).val / 1024, ht8⟩ (1 : Fin 2) * 1024 + 1024
    omega

variable (V : (c : Dev nD) → (b : Ref sig .tc) → Buf (Elt Ideal) ((c : Thread nD τ).loc b))

/-- After the whole grid a region's output array is the projection of its three input arrays as the region finds them. -/
theorem lin0_arr (c : Dev nD) :
    (dat0 (F := Ideal) V c).arrAt 3 cfg0.N
      = Cert.Spec.linRow (V c (Pipeline.arrRef spec0 0)) (V c (Pipeline.arrRef spec0 1)) (V c (Pipeline.arrRef spec0 2)) :=
  (dat0 (F := Ideal) V c).arrAt_eq_of_cover 3 _ (fun t _ => by
    show (cfg0.win 3).cut _ ((dat0 (F := Ideal) V c).after 3 t) = _
    rw [after0_3]
    exact lin_block _ _ _ t) lin_cover

theorem lin1_arr (c : Dev nD) :
    (dat1 (F := Ideal) V c).arrAt 3 cfg1.N
      = Cert.Spec.linRow (V c (Pipeline.arrRef spec1 0)) (V c (Pipeline.arrRef spec1 1)) (V c (Pipeline.arrRef spec1 2)) :=
  (dat1 (F := Ideal) V c).arrAt_eq_of_cover 3 _ (fun t _ => by
    show (cfg1.win 3).cut _ ((dat1 (F := Ideal) V c).after 3 t) = _
    rw [after1_3]
    exact lin_block _ _ _ t) lin_cover

theorem lin2_arr (c : Dev nD) :
    (dat2 (F := Ideal) V c).arrAt 3 cfg2.N
      = Cert.Spec.linRow (V c (Pipeline.arrRef spec2 0)) (V c (Pipeline.arrRef spec2 1)) (V c (Pipeline.arrRef spec2 2)) :=
  (dat2 (F := Ideal) V c).arrAt_eq_of_cover 3 _ (fun t _ => by
    show (cfg2.win 3).cut _ ((dat2 (F := Ideal) V c).after 3 t) = _
    rw [after2_3]
    exact lin_block _ _ _ t) lin_cover

theorem lin3_arr (c : Dev nD) :
    (dat3 (F := Ideal) V c).arrAt 3 cfg3.N
      = Cert.Spec.linRow (V c (Pipeline.arrRef spec3 0)) (V c (Pipeline.arrRef spec3 1)) (V c (Pipeline.arrRef spec3 2)) :=
  (dat3 (F := Ideal) V c).arrAt_eq_of_cover 3 _ (fun t _ => by
    show (cfg3.win 3).cut _ ((dat3 (F := Ideal) V c).after 3 t) = _
    rw [after3_3]
    exact lin_block _ _ _ t) lin_cover

theorem lin4_arr (c : Dev nD) :
    (dat4 (F := Ideal) V c).arrAt 3 cfg4.N
      = Cert.Spec.linRow (V c (Pipeline.arrRef spec4 0)) (V c (Pipeline.arrRef spec4 1)) (V c (Pipeline.arrRef spec4 2)) :=
  (dat4 (F := Ideal) V c).arrAt_eq_of_cover 3 _ (fun t _ => by
    show (cfg4.win 3).cut _ ((dat4 (F := Ideal) V c).after 3 t) = _
    rw [after4_3]
    exact lin_block _ _ _ t) lin_cover

theorem lin5_arr (c : Dev nD) :
    (dat5 (F := Ideal) V c).arrAt 3 cfg5.N
      = Cert.Spec.linRow (V c (Pipeline.arrRef spec5 0)) (V c (Pipeline.arrRef spec5 1)) (V c (Pipeline.arrRef spec5 2)) :=
  (dat5 (F := Ideal) V c).arrAt_eq_of_cover 3 _ (fun t _ => by
    show (cfg5.win 3).cut _ ((dat5 (F := Ideal) V c).after 3 t) = _
    rw [after5_3]
    exact lin_block _ _ _ t) lin_cover

end Cert.KernelIdeal.Hand

end
-- ==== Proof.KI.AttVal.lean ====
import proofs.«106974_j644245095138_1_alg».proof.Proof.KI.AttCore
import proofs.«106974_j644245095138_1_alg».proof.Proof.Spec
import proofs.«106974_j644245095138_1_alg».proof.Proof.LibPlainDot
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

abbrev dQK := dot_S1024x1024_S512x1024_S1024x512_1_1_0_0_n_n

theorem lhs_qk_0 (i : S1024x512.Idx) (q : dQK.contr.Idx) : (dQK.lhsIdx i q 0).val = (i 0).val := by
  unfold DotDims.lhsIdx
  rw [dif_neg (show ¬(0 : Fin S1024x1024.rank) ∈ dQK.lhsBatch by decide), dif_pos (show (0 : Fin S1024x1024.rank) ∈ dQK.lhsNonContracting by decide)]
  rfl
theorem lhs_qk_1 (i : S1024x512.Idx) (q : dQK.contr.Idx) : (dQK.lhsIdx i q 1).val = (q ⟨0, by decide⟩).val :=
  dQK.lhsIdx_val_of_single rfl i q
theorem rhs_qk_0 (i : S1024x512.Idx) (q : dQK.contr.Idx) : (dQK.rhsIdx i q 0).val = (i 1).val := by
  unfold DotDims.rhsIdx
  rw [dif_neg (show ¬(0 : Fin S512x1024.rank) ∈ dQK.rhsBatch by decide), dif_pos (show (0 : Fin S512x1024.rank) ∈ dQK.rhsNonContracting by decide)]
  rfl
theorem rhs_qk_1 (i : S1024x512.Idx) (q : dQK.contr.Idx) : (dQK.rhsIdx i q 1).val = (q ⟨0, by decide⟩).val :=
  dQK.rhsIdx_val_of_single rfl i q

-- The scores at (r, n): the sum over the features d of q (r, d) * k (n, d).
theorem matmul_qk_apply (q : FVec Ideal S1024x1024 .bf16) (k : FVec Ideal S512x1024 .bf16) (r : Fin 1024) (n : Fin 512) :
    matmul dQK none q k (constant S1024x512 .f32 0x00000000#32) (ix2 r n) = ∑ d : Fin 1024, q (ix2 r d) * k (ix2 n d) := by
  show FloatOps.matmul dQK none q k (constant S1024x512 .f32 0x00000000#32) (ix2 r n) = _
  rw [Ideal.matmul_constant_zero_apply, ← Equiv.sum_comp (ValueIdx.contrEquiv1 dQK 1024 rfl rfl).symm]
  refine Finset.sum_congr rfl fun d _ => ?_
  have hd := ValueIdx.contrEquiv1_symm_val dQK 1024 rfl rfl d
  have el : dQK.lhsIdx (ix2 r n) ((ValueIdx.contrEquiv1 dQK 1024 rfl rfl).symm d) = ix2 r d :=
    funext fun a => Fin.ext (by
      match a with
      | ⟨0, _⟩ => exact lhs_qk_0 _ _
      | ⟨1, _⟩ => exact (lhs_qk_1 _ _).trans hd)
  have er : dQK.rhsIdx (ix2 r n) ((ValueIdx.contrEquiv1 dQK 1024 rfl rfl).symm d) = ix2 n d :=
    funext fun a => Fin.ext (by
      match a with
      | ⟨0, _⟩ => exact rhs_qk_0 _ _
      | ⟨1, _⟩ => exact (rhs_qk_1 _ _).trans hd)
  rw [el, er]

theorem pay_1_apply (i : S1024x1024.Idx) : k6_pay1 (F := Ideal) i = 0 := by
  unfold k6_pay1
  rw [shapeCast_self]
  exact Ideal.ofBits_zero_f32

-- The gates at (r, n): the sigmoid of the scaled score of query row r against key row n.
theorem pay_2_apply (q : Vec Ideal S1024x1024 .bf16) (k : Vec Ideal S512x1024 .bf16) (r : Fin 1024) (n : Fin 512) :
    k6_pay2 (F := Ideal) q k (ix2 r n) = Ideal.logistic ((∑ d : Fin 1024, q (ix2 r d) * k (ix2 n d)) * Cert.Spec.scale) := by
  unfold k6_pay2
  rw [shapeCast_self, shapeCast_self]
  show Ideal.logistic (matmul (F := Ideal) dQK none (q : FVec Ideal S1024x1024 .bf16) (k : FVec Ideal S512x1024 .bf16) (constant S1024x512 .f32 0x00000000#32) (ix2 r n) * Cert.Spec.scale) = _
  exact congrArg (fun z => Ideal.logistic (z * Cert.Spec.scale)) (matmul_qk_apply q k r n)

-- One accumulation at (r, d): the accumulator there plus the sum over the block's key rows n of gate (r, n) * v (n, d).
theorem pay_3_apply (q : Vec Ideal S1024x1024 .bf16) (k v : Vec Ideal S512x1024 .bf16) (a : Vec Ideal S1024x1024 .f32) (r d : Fin 1024) :
    k6_pay3 (F := Ideal) q k v a (ix2 r d) = a (ix2 r d) + ∑ n : Fin 512, k6_pay2 (F := Ideal) q k (ix2 r n) * v (ix2 n d) := by
  unfold k6_pay3
  rw [shapeCast_self, shapeCast_self]
  show a (ix2 r d) + matmul (F := Ideal) dot_S1024x512_S512x1024_S1024x1024_1_0_0_1_n_n none
      (truncf .bf16 (k6_pay2 (F := Ideal) q k) bitsLt_bf16_f32 : FVec Ideal S1024x512 .bf16) (v : FVec Ideal S512x1024 .bf16)
      (constant S1024x1024 .f32 0x00000000#32) (ix2 r d) = _
  exact congrArg (a (ix2 r d) + ·)
    (Cert.LibPlainDot.matmul_plain_apply 1024 512 1024 (truncf .bf16 (k6_pay2 (F := Ideal) q k) bitsLt_bf16_f32) v r d)

-- Row r of the query block of point t = 16 i + j is row 1024 i + r of the array; row n of key block j is row 512 j + n.
def qrow (t : Fin grid6.N) (r : Fin 1024) : Fin 8192 :=
  ⟨t.val / 16 * 1024 + r.val, by have hN : grid6.N = 128 := N_6; have := t.isLt; have := r.isLt; omega⟩
def krow (j : ℕ) (hj : j < 16) (n : Fin 512) : Fin 8192 := ⟨j * 512 + n.val, by have := n.isLt; omega⟩

abbrev jOf (t : Fin grid6.N) : t.val % 16 < 16 := Nat.mod_lt _ (by decide)

theorem probs_apply (q : Vec Ideal S1024x1024 .bf16) (k : Vec Ideal S512x1024 .bf16) (r : Fin 1024) (n : Fin 512) :
    probs (F := Ideal) q k (ix2 r n) = Ideal.logistic ((∑ e : Fin 1024, q (ix2 r e) * k (ix2 n e)) * Cert.Spec.scale) := by
  unfold probs
  rw [View.canon_unit_zero hz]
  simp only [View.ld_unit_zero (S := S1024x1024) hz, View.ld_unit_zero (S := S512x1024) hz]
  exact pay_2_apply q k r n

theorem accZero_apply (r d : Fin 1024) : accZero (F := Ideal) (ix2 r d) = 0 := by
  unfold accZero
  rw [View.canon_unit_zero hz]
  exact pay_1_apply (ix2 r d)

theorem accStep_apply (q : Vec Ideal S1024x1024 .bf16) (k v : Vec Ideal S512x1024 .bf16) (a : Vec Ideal S1024x1024 .f32) (r d : Fin 1024) :
    accStep (F := Ideal) q k v a (ix2 r d)
      = a (ix2 r d) + ∑ n : Fin 512, Ideal.logistic ((∑ e : Fin 1024, q (ix2 r e) * k (ix2 n e)) * Cert.Spec.scale) * v (ix2 n d) := by
  rw [accStep_eq]
  simp only [View.ld_unit_zero (S := S1024x1024) hz, View.ld_unit_zero (S := S512x1024) hz]
  refine (pay_3_apply q k v a r d).trans ?_
  refine congrArg _ (Finset.sum_congr rfl fun n _ => ?_)
  rw [pay_2_apply]

section Blocks

variable (Q K W : Vec Ideal S8192x1024 .bf16)
  (qb : Fin grid6.N → Vec Ideal S1024x1024 .bf16) (kb vb : Fin grid6.N → Vec Ideal S512x1024 .bf16)
  (hq : ∀ t r d, qb t (ix2 r d) = Q (ix2 (qrow t r) d))
  (hk : ∀ t n d, kb t (ix2 n d) = K (ix2 (krow (t.val % 16) (jOf t) n) d))
  (hv : ∀ t n d, vb t (ix2 n d) = W (ix2 (krow (t.val % 16) (jOf t) n) d))

include hq hk in
-- The gates of point t's blocks are the array's gate at the block's rows.
theorem probs_blk (t : Fin grid6.N) (r : Fin 1024) (n : Fin 512) :
    probs (qb t) (kb t) (ix2 r n) = Cert.Spec.gate Q K (ix2 (qrow t r) (krow (t.val % 16) (jOf t) n)) := by
  rw [probs_apply]
  simp only [hq, hk]
  rfl

-- Key block j's share of entry (R, d) of the context.
def term (R : Fin 8192) (d : Fin 1024) (j : ℕ) : EReal :=
  if hj : j < 16 then ∑ n : Fin 512, Cert.Spec.gate Q K (ix2 R (krow j hj n)) * W (ix2 (krow j hj n) d) else 0

include hq hk hv in
-- After point t = 16 i + j the accumulator holds the shares of key blocks 0 to j for query row 1024 i + r.
theorem accOf_inv : ∀ (n : ℕ) (h : n < grid6.N) (r d : Fin 1024),
    accOf qb kb vb n h (ix2 r d) = ∑ j ∈ Finset.range (n % 16 + 1), term Q K W (qrow ⟨n, h⟩ r) d j := by
  have point : ∀ (t : Fin grid6.N) (r d : Fin 1024),
      (∑ n : Fin 512, Ideal.logistic ((∑ e : Fin 1024, qb t (ix2 r e) * kb t (ix2 n e)) * Cert.Spec.scale) * vb t (ix2 n d))
        = term Q K W (qrow t r) d (t.val % 16) := by
    intro t r d
    unfold term
    rw [dif_pos (jOf t)]
    refine Finset.sum_congr rfl fun n _ => ?_
    simp only [hq, hk, hv]
    rfl
  intro n
  induction n with
  | zero =>
    intro h r d
    rw [accOf_eq qb kb vb ⟨0, h⟩, accStep_apply, point]
    show (if 0 % 16 = 0 then accZero else _) (ix2 r d) + _ = _
    rw [if_pos (Nat.zero_mod 16), accZero_apply, zero_add]
    show _ = ∑ j ∈ Finset.range (0 + 1), _
    rw [Finset.sum_range_succ, Finset.sum_range_zero, zero_add]
    rfl
  | succ n ih =>
    intro h r d
    have hn : n < grid6.N := Nat.lt_of_succ_lt h
    rw [accOf_eq qb kb vb ⟨n + 1, h⟩, accStep_apply, point]
    show (if (n + 1) % 16 = 0 then accZero else accOf qb kb vb n _) (ix2 r d) + term Q K W _ d ((n + 1) % 16) = _
    by_cases hm : (n + 1) % 16 = 0
    · rw [if_pos hm, accZero_apply, zero_add, hm, Finset.sum_range_succ, Finset.sum_range_zero, zero_add]
    · have e1 : (n + 1) % 16 = n % 16 + 1 := by omega
      have eq : qrow ⟨n + 1, h⟩ r = qrow ⟨n, hn⟩ r :=
        Fin.ext (by show (n + 1) / 16 * 1024 + r.val = n / 16 * 1024 + r.val; omega)
      rw [if_neg hm, ih hn r d, eq, e1, Finset.sum_range_succ _ (n % 16 + 1)]

end Blocks

-- The sixteen shares make the whole sum over the 8192 key rows: row 512 j + n is the n-th of block j.
theorem sum_term (Q K W : Vec Ideal S8192x1024 .bf16) (R : Fin 8192) (d : Fin 1024) :
    ∑ j ∈ Finset.range 16, term Q K W R d j = Cert.Spec.ctx (Cert.Spec.gate Q K) W (ix2 R d) := by
  show _ = ∑ N : Fin 8192, Cert.Spec.gate Q K (ix2 R N) * W (ix2 N d)
  rw [Finset.sum_range]
  have h := Equiv.sum_comp (finProdFinEquiv (m := 16) (n := 512))
    (fun N : Fin 8192 => Cert.Spec.gate Q K (ix2 R N) * W (ix2 N d))
  refine Eq.trans ?_ h
  rw [Fintype.sum_prod_type]
  refine Finset.sum_congr rfl fun j _ => ?_
  unfold term
  rw [dif_pos j.isLt]
  refine Finset.sum_congr rfl fun n _ => ?_
  have e : krow j.val j.isLt n = finProdFinEquiv (j, n) :=
    Fin.ext (by show j.val * 512 + n.val = n.val + 512 * j.val; omega)
  rw [e]

end Cert.KernelIdeal.Hand

end
-- ==== Proof.KI.AttArr.lean ====
import proofs.«106974_j644245095138_1_alg».proof.Proof.KI.Att
import proofs.«106974_j644245095138_1_alg».proof.Proof.KI.AttVal
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

-- At point t = 16 i + j the query, probabilities and context windows sit at block row i, the key and value windows at block row j.
theorem idx : ∀ t : Fin grid6.N,
    win6_0.index t (0 : Fin 2) = t.val / 16 ∧ win6_0.index t (1 : Fin 2) = 0
    ∧ win6_1.index t (0 : Fin 2) = t.val % 16 ∧ win6_1.index t (1 : Fin 2) = 0
    ∧ win6_3.index t (0 : Fin 2) = t.val / 16 ∧ win6_3.index t (1 : Fin 2) = t.val % 16
    ∧ win6_4.index t (0 : Fin 2) = t.val / 16 ∧ win6_4.index t (1 : Fin 2) = 0 := by decide +kernel

-- The blocks the windows read, as rows of any array of their shape.
theorem blk0 (A : Vec Ideal S8192x1024 .bf16) (t : Fin grid6.N) (r d : Fin 1024) :
    ((cfg6.win 0).blk t).view.read (Elt Ideal) A (ix2 r d) = A (ix2 (qrow t r) d) := by
  obtain ⟨e0, e1, -⟩ := idx t
  show A (((cfg6.win 0).blk t).view.emb (ix2 r d)) = _
  refine congrArg _ (funext fun a => Fin.ext ?_)
  match a with
  | ⟨0, _⟩ => show win6_0.index t (0 : Fin 2) * 1024 + 1 * r.val = t.val / 16 * 1024 + r.val; rw [e0]; omega
  | ⟨1, _⟩ => show win6_0.index t (1 : Fin 2) * 1024 + 1 * d.val = d.val; rw [e1]; omega

theorem blk1 (A : Vec Ideal S8192x1024 .bf16) (t : Fin grid6.N) (n : Fin 512) (d : Fin 1024) :
    ((cfg6.win 1).blk t).view.read (Elt Ideal) A (ix2 n d) = A (ix2 (krow (t.val % 16) (jOf t) n) d) := by
  obtain ⟨-, -, e0, e1, -⟩ := idx t
  show A (((cfg6.win 1).blk t).view.emb (ix2 n d)) = _
  refine congrArg _ (funext fun a => Fin.ext ?_)
  match a with
  | ⟨0, _⟩ => show win6_1.index t (0 : Fin 2) * 512 + 1 * n.val = t.val % 16 * 512 + n.val; rw [e0]; omega
  | ⟨1, _⟩ => show win6_1.index t (1 : Fin 2) * 1024 + 1 * d.val = d.val; rw [e1]; omega

section Blocks

variable (Q K W : Vec Ideal S8192x1024 .bf16)
  (qb : Fin grid6.N → Vec Ideal S1024x1024 .bf16) (kb vb : Fin grid6.N → Vec Ideal S512x1024 .bf16)
  (hq : ∀ t r d, qb t (ix2 r d) = Q (ix2 (qrow t r) d))
  (hk : ∀ t n d, kb t (ix2 n d) = K (ix2 (krow (t.val % 16) (jOf t) n) d))
  (hv : ∀ t n d, vb t (ix2 n d) = W (ix2 (krow (t.val % 16) (jOf t) n) d))

include hq hk in
-- Point t's block of gates is block t of the gate of the query array against the key array.
theorem gate_blk (t : Fin grid6.N) :
    (cfg6.win 3).cut (grid6.coords t) (probs (qb t) (kb t)) = ((cfg6.win 3).blk t).view.read (Elt Ideal) (Cert.Spec.gate Q K) := by
  obtain ⟨-, -, -, -, e30, e31, -⟩ := idx t
  funext j
  obtain ⟨r, n, rfl⟩ : ∃ (r : Fin 1024) (n : Fin 512), j = ix2 r n := ⟨j 0, j 1, eq_ix2 j⟩
  show probs (qb t) (kb t) (ix2 r n) = Cert.Spec.gate Q K (((cfg6.win 3).blk t).view.emb (ix2 r n))
  rw [probs_blk Q K qb kb hq hk t r n]
  refine congrArg _ (funext fun a => Fin.ext ?_)
  match a with
  | ⟨0, _⟩ => show t.val / 16 * 1024 + r.val = win6_3.index t (0 : Fin 2) * 1024 + 1 * r.val; rw [e30]; omega
  | ⟨1, _⟩ => show t.val % 16 * 512 + n.val = win6_3.index t (1 : Fin 2) * 512 + 1 * n.val; rw [e31]; omega

include hq hk hv in
-- At a point with j = 15 the accumulator holds all sixteen shares: its block of the context.
theorem ctx_blk (t : Fin grid6.N) (hf : (cfg6.win 4).flush t = true) :
    (cfg6.win 4).cut (grid6.coords t) (ctxOf (accOf qb kb vb t.val t.isLt))
      = ((cfg6.win 4).blk t).view.read (Elt Ideal) (Cert.Spec.ctx (Cert.Spec.gate Q K) W) := by
  have h16 : t.val % 16 + 1 = 16 := by have := (flush6_4 t).mp hf; omega
  rw [ctxOf_eq]
  funext y
  obtain ⟨-, -, -, -, -, -, e0, e1⟩ := idx t
  have hr : (y 0).val < 1024 := (y 0).isLt
  have hd : (y 1).val < 1024 := (y 1).isLt
  have hL : (cfg6.win 4).xinj (grid6.coords t) y = ix2 (⟨(y 0).val, hr⟩ : Fin 1024) (⟨(y 1).val, hd⟩ : Fin 1024) :=
    funext fun a => Fin.ext (by
      match a with
      | ⟨0, _⟩ => rfl
      | ⟨1, _⟩ => rfl)
  have hR : ((cfg6.win 4).blk t).view.emb y = ix2 (qrow t (⟨(y 0).val, hr⟩ : Fin 1024)) (⟨(y 1).val, hd⟩ : Fin 1024) :=
    funext fun a => Fin.ext (by
      match a with
      | ⟨0, _⟩ => show win6_4.index t (0 : Fin 2) * 1024 + 1 * (y 0).val = t.val / 16 * 1024 + (y 0).val; rw [e0]; omega
      | ⟨1, _⟩ => show win6_4.index t (1 : Fin 2) * 1024 + 1 * (y 1).val = (y 1).val; rw [e1]; omega)
  show accOf qb kb vb t.val t.isLt ((cfg6.win 4).xinj (grid6.coords t) y) = Cert.Spec.ctx _ _ (((cfg6.win 4).blk t).view.emb y)
  rw [hL, hR, accOf_inv Q K W qb kb vb hq hk hv t.val t.isLt, h16, sum_term]

end Blocks

-- The blocks tile the array: entry (r, n) lies in the block of point 16 (r / 1024) + n / 512.
theorem cover3 (i : S8192x8192.Idx) :
    ∃ t : Fin cfg6.N, (cfg6.win 3).flush t = true ∧ i ∈ ((cfg6.win 3).blk t).view.set := by
  have h0 : (i 0).val < 8192 := idx2_lt0 i
  have h1 : (i 1).val < 8192 := idx2_lt1 i
  have hN : cfg6.N = 128 := N_6
  obtain ⟨t, ht⟩ : ∃ t : Fin cfg6.N, t.val = 16 * ((i 0).val / 1024) + (i 1).val / 512 := ⟨⟨_, by omega⟩, rfl⟩
  obtain ⟨-, -, -, -, e30, e31, -⟩ := idx t
  refine ⟨t, flush6_3 _, ?_⟩
  rw [show ((cfg6.win 3).blk t).view.set = (win6_3.rect t).set from View.set_slice_whole _ _, Rect.mem_set_unit]
  intro a
  match a with
  | ⟨0, _⟩ =>
    show win6_3.index t (0 : Fin 2) * 1024 ≤ (i 0).val ∧ (i 0).val < win6_3.index t (0 : Fin 2) * 1024 + 1024
    rw [e30]; omega
  | ⟨1, _⟩ =>
    show win6_3.index t (1 : Fin 2) * 512 ≤ (i 1).val ∧ (i 1).val < win6_3.index t (1 : Fin 2) * 512 + 512
    rw [e31]; omega

-- Row R of the array lies in the block of point 16 (R / 1024) + 15.
theorem cover4 (i : S8192x1024.Idx) :
    ∃ t : Fin cfg6.N, (cfg6.win 4).flush t = true ∧ i ∈ ((cfg6.win 4).blk t).view.set := by
  have hN : cfg6.N = 128 := N_6
  have hi0 : (i 0).val < 8192 := (i 0).isLt
  have hi1 : (i 1).val < 1024 := (i 1).isLt
  obtain ⟨t, ht⟩ : ∃ t : Fin cfg6.N, t.val = 16 * ((i 0).val / 1024) + 15 := ⟨⟨_, by omega⟩, rfl⟩
  obtain ⟨-, -, -, -, -, -, e0, e1⟩ := idx t
  refine ⟨t, (flush6_4 t).mpr (by omega), ?_⟩
  rw [show ((cfg6.win 4).blk t).view.set = (win6_4.rect t).set from View.set_slice_whole _ _, Rect.mem_set_unit]
  intro a
  match a with
  | ⟨0, _⟩ =>
    show win6_4.index t (0 : Fin 2) * 1024 ≤ (i 0).val ∧ (i 0).val < win6_4.index t (0 : Fin 2) * 1024 + 1024
    rw [e0]; omega
  | ⟨1, _⟩ =>
    show win6_4.index t (1 : Fin 2) * 1024 ≤ (i 1).val ∧ (i 1).val < win6_4.index t (1 : Fin 2) * 1024 + 1024
    rw [e1]; omega

variable (V : (c : Dev nD) → (b : Ref sig .tc) → Buf (Elt Ideal) ((c : Thread nD τ).loc b))

theorem att6_probs (c : Dev nD) :
    (dat6 (F := Ideal) V c).arrAt 3 cfg6.N
      = Cert.Spec.gate (V c (Pipeline.arrRef spec6 0)) (V c (Pipeline.arrRef spec6 1)) :=
  (dat6 (F := Ideal) V c).arrAt_eq_of_cover 3 _
    (fun t _ => (congrArg ((cfg6.win 3).cut (grid6.coords t)) (after6_3 V c t)).trans
      (gate_blk _ _ (iblk6 V c 0) (iblk6 V c 1) (blk0 _) (blk1 _) t))
    cover3

theorem att6_ctx (c : Dev nD) :
    (dat6 (F := Ideal) V c).arrAt 4 cfg6.N
      = Cert.Spec.ctx (Cert.Spec.gate (V c (Pipeline.arrRef spec6 0)) (V c (Pipeline.arrRef spec6 1)))
          (V c (Pipeline.arrRef spec6 2)) :=
  (dat6 (F := Ideal) V c).arrAt_eq_of_cover 4 _
    (fun t hf => (congrArg ((cfg6.win 4).cut (grid6.coords t)) (after6_4 V c t)).trans
      (ctx_blk _ _ _ (iblk6 V c 0) (iblk6 V c 1) (iblk6 V c 2) (blk0 _) (blk1 _) (blk1 _) t hf))
    cover4

theorem att7_probs (c : Dev nD) :
    (dat7 (F := Ideal) V c).arrAt 3 cfg7.N
      = Cert.Spec.gate (V c (Pipeline.arrRef spec7 0)) (V c (Pipeline.arrRef spec7 1)) :=
  (dat7 (F := Ideal) V c).arrAt_eq_of_cover 3 _
    (fun t _ => (congrArg ((cfg7.win 3).cut (grid7.coords t)) (after7_3 V c t)).trans
      (gate_blk _ _ (iblk7 V c 0) (iblk7 V c 1) (blk0 _) (blk1 _) t))
    cover3

theorem att7_ctx (c : Dev nD) :
    (dat7 (F := Ideal) V c).arrAt 4 cfg7.N
      = Cert.Spec.ctx (Cert.Spec.gate (V c (Pipeline.arrRef spec7 0)) (V c (Pipeline.arrRef spec7 1)))
          (V c (Pipeline.arrRef spec7 2)) :=
  (dat7 (F := Ideal) V c).arrAt_eq_of_cover 4 _
    (fun t hf => (congrArg ((cfg7.win 4).cut (grid7.coords t)) (after7_4 V c t)).trans
      (ctx_blk _ _ _ (iblk7 V c 0) (iblk7 V c 1) (iblk7 V c 2) (blk0 _) (blk1 _) (blk1 _) t hf))
    cover4

end Cert.KernelIdeal.Hand

end
-- ==== Proof.KI.Chain.lean ====
import proofs.«106974_j644245095138_1_alg».proof.Proof.KI.Fold
import proofs.«106974_j644245095138_1_alg».proof.Proof.KI.LinVal
import proofs.«106974_j644245095138_1_alg».proof.Proof.KI.AttArr
import proofs.«106974_j644245095138_1_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

abbrev launched (c : Dev nD) (b : Ref sig .tc) : Buf (Elt Ideal) ((c : Thread nD τ).loc b) := m ((c : Thread nD τ).loc b)

abbrev chain_args : List (Ref sig .tc) :=
  [main_arg0, main_arg1, main_arg2, main_arg3, main_arg4, main_arg5, main_arg6, main_arg7, main_arg8, main_arg9,
   main_arg10, main_arg11, main_arg12, main_arg13]

theorem chain_args_not_host : ∀ b ∈ chain_args,
    b ∉ hostOps0_W ∧ b ∉ hostOps1_W ∧ b ∉ hostOps2_W ∧ b ∉ hostOps3_W ∧ b ∉ hostOps4_W := by
  decide
theorem chain_args_not_arr0 : ∀ b ∈ chain_args, ∀ w : Fin cfg0.W, Pipeline.arrRef spec0 w ≠ b := by decide
theorem chain_args_not_arr1 : ∀ b ∈ chain_args, ∀ w : Fin cfg1.W, Pipeline.arrRef spec1 w ≠ b := by decide
theorem chain_args_not_arr2 : ∀ b ∈ chain_args, ∀ w : Fin cfg2.W, Pipeline.arrRef spec2 w ≠ b := by decide
theorem chain_args_not_arr3 : ∀ b ∈ chain_args, ∀ w : Fin cfg3.W, Pipeline.arrRef spec3 w ≠ b := by decide
theorem chain_args_not_arr4 : ∀ b ∈ chain_args, ∀ w : Fin cfg4.W, Pipeline.arrRef spec4 w ≠ b := by decide

/-- No item writes an argument, so after each of the first five regions every argument is as launched. -/
theorem chain_arg_at0 (c : Dev nD) (b : Ref sig .tc) (hb : b ∈ chain_args) :
    Wpost0 m ρ c (Proc.devRef .tc b) = launched m c b :=
  (keep 0 hostOps0_writes (WpostS m ρ) c b (chain_args_not_host b hb).1 (chain_args_not_arr0 b hb)).trans rfl
theorem chain_arg_at1 (c : Dev nD) (b : Ref sig .tc) (hb : b ∈ chain_args) :
    Wpost1 m ρ c (Proc.devRef .tc b) = launched m c b :=
  (keep 1 hostOps1_writes (Wpost0 m ρ) c b (chain_args_not_host b hb).2.1 (chain_args_not_arr1 b hb)).trans (chain_arg_at0 m ρ c b hb)
theorem chain_arg_at2 (c : Dev nD) (b : Ref sig .tc) (hb : b ∈ chain_args) :
    Wpost2 m ρ c (Proc.devRef .tc b) = launched m c b :=
  (keep 2 hostOps2_writes (Wpost1 m ρ) c b (chain_args_not_host b hb).2.2.1 (chain_args_not_arr2 b hb)).trans (chain_arg_at1 m ρ c b hb)
theorem chain_arg_at3 (c : Dev nD) (b : Ref sig .tc) (hb : b ∈ chain_args) :
    Wpost3 m ρ c (Proc.devRef .tc b) = launched m c b :=
  (keep 3 hostOps3_writes (Wpost2 m ρ) c b (chain_args_not_host b hb).2.2.2.1 (chain_args_not_arr3 b hb)).trans (chain_arg_at2 m ρ c b hb)
theorem chain_arg_at4 (c : Dev nD) (b : Ref sig .tc) (hb : b ∈ chain_args) :
    Wpost4 m ρ c (Proc.devRef .tc b) = launched m c b :=
  (keep 4 hostOps4_writes (Wpost3 m ρ) c b (chain_args_not_host b hb).2.2.2.2 (chain_args_not_arr4 b hb)).trans (chain_arg_at3 m ρ c b hb)

/-- A bias recast as one row is read at column `d` as the bias at `d`. -/
theorem chain_linRow_reshape (x : Cert.Spec.Srd.Idx → EReal) (W : Cert.Spec.Sw.Idx → EReal) (b : Cert.Spec.Sb.Idx → EReal)
    (h : Cert.Spec.Sb.ShapeCasts Cert.Spec.Sb1) :
    Cert.Spec.linRow x W (shapeCast Cert.Spec.Sb1 b h) = Cert.Spec.lin x W b := by
  funext i
  show _ + shapeCast Cert.Spec.Sb1 b h (ix2 (0 : Fin 1) (i 1)) = _ + b (ix1 (i 1))
  exact congrArg (_ + ·) (shapeCast_a_1a_apply b h (0 : Fin 1) (i 1))

/-- Over the extended reals a change of format is the identity: the host operations before a region leave copies equal to the arguments, the bias as one row. -/
theorem chain_x0_pre0 (c : Dev nD) :
    (Wpre0 m ρ c (Proc.devRef .tc main_v0) : Cert.Spec.Srd.Idx → EReal) = launched m c main_arg0 := by
  show StableHlo.after hostOps0 (WpostS m ρ c) (Proc.devRef .tc main_v0) = _
  after_results
  rfl
theorem chain_x1_pre0 (c : Dev nD) :
    (Wpre0 m ρ c (Proc.devRef .tc main_v1) : Cert.Spec.Srd.Idx → EReal) = launched m c main_arg1 := by
  show StableHlo.after hostOps0 (WpostS m ρ c) (Proc.devRef .tc main_v1) = _
  after_results
  rfl
theorem chain_W_pre0 (c : Dev nD) :
    (Wpre0 m ρ c (Proc.devRef .tc main_v2) : Cert.Spec.Sw.Idx → EReal) = launched m c main_arg2 := by
  show StableHlo.after hostOps0 (WpostS m ρ c) (Proc.devRef .tc main_v2) = _
  after_results
  rfl
theorem chain_b_pre0 (c : Dev nD) :
    (Wpre0 m ρ c (Proc.devRef .tc main_v3) : Cert.Spec.Sb1.Idx → EReal)
      = shapeCast Cert.Spec.Sb1 (launched m c main_arg3 : Cert.Spec.Sb.Idx → EReal) shapeCasts_S1024_S1x1024 := by
  show StableHlo.after hostOps0 (WpostS m ρ c) (Proc.devRef .tc main_v3) = _
  after_results
  rfl

theorem chain_W_pre1 (c : Dev nD) :
    (Wpre1 m ρ c (Proc.devRef .tc main_v5) : Cert.Spec.Sw.Idx → EReal) = launched m c main_arg4 := by
  show StableHlo.after hostOps1 (Wpost0 m ρ c) (Proc.devRef .tc main_v5) = _
  after_results
  rw [chain_arg_at0 m ρ c main_arg4 (by decide)]
  rfl
theorem chain_b_pre1 (c : Dev nD) :
    (Wpre1 m ρ c (Proc.devRef .tc main_v6) : Cert.Spec.Sb1.Idx → EReal)
      = shapeCast Cert.Spec.Sb1 (launched m c main_arg5 : Cert.Spec.Sb.Idx → EReal) shapeCasts_S1024_S1x1024 := by
  show StableHlo.after hostOps1 (Wpost0 m ρ c) (Proc.devRef .tc main_v6) = _
  after_results
  rw [chain_arg_at0 m ρ c main_arg5 (by decide)]
  rfl

theorem chain_W_pre2 (c : Dev nD) :
    (Wpre2 m ρ c (Proc.devRef .tc main_v8) : Cert.Spec.Sw.Idx → EReal) = launched m c main_arg6 := by
  show StableHlo.after hostOps2 (Wpost1 m ρ c) (Proc.devRef .tc main_v8) = _
  after_results
  rw [chain_arg_at1 m ρ c main_arg6 (by decide)]
  rfl
theorem chain_b_pre2 (c : Dev nD) :
    (Wpre2 m ρ c (Proc.devRef .tc main_v9) : Cert.Spec.Sb1.Idx → EReal)
      = shapeCast Cert.Spec.Sb1 (launched m c main_arg7 : Cert.Spec.Sb.Idx → EReal) shapeCasts_S1024_S1x1024 := by
  show StableHlo.after hostOps2 (Wpost1 m ρ c) (Proc.devRef .tc main_v9) = _
  after_results
  rw [chain_arg_at1 m ρ c main_arg7 (by decide)]
  rfl

theorem chain_W_pre3 (c : Dev nD) :
    (Wpre3 m ρ c (Proc.devRef .tc main_v11) : Cert.Spec.Sw.Idx → EReal) = launched m c main_arg8 := by
  show StableHlo.after hostOps3 (Wpost2 m ρ c) (Proc.devRef .tc main_v11) = _
  after_results
  rw [chain_arg_at2 m ρ c main_arg8 (by decide)]
  rfl
theorem chain_b_pre3 (c : Dev nD) :
    (Wpre3 m ρ c (Proc.devRef .tc main_v12) : Cert.Spec.Sb1.Idx → EReal)
      = shapeCast Cert.Spec.Sb1 (launched m c main_arg9 : Cert.Spec.Sb.Idx → EReal) shapeCasts_S1024_S1x1024 := by
  show StableHlo.after hostOps3 (Wpost2 m ρ c) (Proc.devRef .tc main_v12) = _
  after_results
  rw [chain_arg_at2 m ρ c main_arg9 (by decide)]
  rfl

theorem chain_W_pre4 (c : Dev nD) :
    (Wpre4 m ρ c (Proc.devRef .tc main_v14) : Cert.Spec.Sw.Idx → EReal) = launched m c main_arg10 := by
  show StableHlo.after hostOps4 (Wpost3 m ρ c) (Proc.devRef .tc main_v14) = _
  after_results
  rw [chain_arg_at3 m ρ c main_arg10 (by decide)]
  rfl
theorem chain_b_pre4 (c : Dev nD) :
    (Wpre4 m ρ c (Proc.devRef .tc main_v15) : Cert.Spec.Sb1.Idx → EReal)
      = shapeCast Cert.Spec.Sb1 (launched m c main_arg11 : Cert.Spec.Sb.Idx → EReal) shapeCasts_S1024_S1x1024 := by
  show StableHlo.after hostOps4 (Wpost3 m ρ c) (Proc.devRef .tc main_v15) = _
  after_results
  rw [chain_arg_at3 m ρ c main_arg11 (by decide)]
  rfl

theorem chain_W_pre5 (c : Dev nD) :
    (Wpre5 m ρ c (Proc.devRef .tc main_v17) : Cert.Spec.Sw.Idx → EReal) = launched m c main_arg12 := by
  show StableHlo.after hostOps5 (Wpost4 m ρ c) (Proc.devRef .tc main_v17) = _
  after_results
  rw [chain_arg_at4 m ρ c main_arg12 (by decide)]
  rfl
theorem chain_b_pre5 (c : Dev nD) :
    (Wpre5 m ρ c (Proc.devRef .tc main_v18) : Cert.Spec.Sb1.Idx → EReal)
      = shapeCast Cert.Spec.Sb1 (launched m c main_arg13 : Cert.Spec.Sb.Idx → EReal) shapeCasts_S1024_S1x1024 := by
  show StableHlo.after hostOps5 (Wpost4 m ρ c) (Proc.devRef .tc main_v18) = _
  after_results
  rw [chain_arg_at4 m ρ c main_arg13 (by decide)]
  rfl

/-- A region leaves an input array as it found it, and the host operations between write other buffers. -/
theorem chain_x0_post0 (c : Dev nD) : (Wpost0 m ρ c (Proc.devRef .tc main_v0) : Cert.Spec.Srd.Idx → EReal) = launched m c main_arg0 :=
  (leave_in 0 launch0 (Wpre0 m ρ) c 0 rfl rfl).trans (chain_x0_pre0 m ρ c)
theorem chain_x0_pre1 (c : Dev nD) : (Wpre1 m ρ c (Proc.devRef .tc main_v0) : Cert.Spec.Srd.Idx → EReal) = launched m c main_arg0 :=
  (host_keep hostOps1_writes _ main_v0 (by decide)).trans (chain_x0_post0 m ρ c)
theorem chain_x0_post1 (c : Dev nD) : (Wpost1 m ρ c (Proc.devRef .tc main_v0) : Cert.Spec.Srd.Idx → EReal) = launched m c main_arg0 :=
  (leave_in 1 launch1 (Wpre1 m ρ) c 0 rfl rfl).trans (chain_x0_pre1 m ρ c)
theorem chain_x0_pre2 (c : Dev nD) : (Wpre2 m ρ c (Proc.devRef .tc main_v0) : Cert.Spec.Srd.Idx → EReal) = launched m c main_arg0 :=
  (host_keep hostOps2_writes _ main_v0 (by decide)).trans (chain_x0_post1 m ρ c)

theorem chain_x1_post0 (c : Dev nD) : (Wpost0 m ρ c (Proc.devRef .tc main_v1) : Cert.Spec.Srd.Idx → EReal) = launched m c main_arg1 :=
  (leave_of_ne 0 (Wpre0 m ρ) c main_v1 (by decide)).trans (chain_x1_pre0 m ρ c)
theorem chain_x1_post1 (c : Dev nD) : (Wpost1 m ρ c (Proc.devRef .tc main_v1) : Cert.Spec.Srd.Idx → EReal) = launched m c main_arg1 :=
  (keep 1 hostOps1_writes (Wpost0 m ρ) c main_v1 (by decide) (by decide)).trans (chain_x1_post0 m ρ c)
theorem chain_x1_post2 (c : Dev nD) : (Wpost2 m ρ c (Proc.devRef .tc main_v1) : Cert.Spec.Srd.Idx → EReal) = launched m c main_arg1 :=
  (keep 2 hostOps2_writes (Wpost1 m ρ) c main_v1 (by decide) (by decide)).trans (chain_x1_post1 m ρ c)
theorem chain_x1_pre3 (c : Dev nD) : (Wpre3 m ρ c (Proc.devRef .tc main_v1) : Cert.Spec.Srd.Idx → EReal) = launched m c main_arg1 :=
  (host_keep hostOps3_writes _ main_v1 (by decide)).trans (chain_x1_post2 m ρ c)
theorem chain_x1_post3 (c : Dev nD) : (Wpost3 m ρ c (Proc.devRef .tc main_v1) : Cert.Spec.Srd.Idx → EReal) = launched m c main_arg1 :=
  (leave_in 3 launch3 (Wpre3 m ρ) c 0 rfl rfl).trans (chain_x1_pre3 m ρ c)
theorem chain_x1_pre4 (c : Dev nD) : (Wpre4 m ρ c (Proc.devRef .tc main_v1) : Cert.Spec.Srd.Idx → EReal) = launched m c main_arg1 :=
  (host_keep hostOps4_writes _ main_v1 (by decide)).trans (chain_x1_post3 m ρ c)
theorem chain_x1_post4 (c : Dev nD) : (Wpost4 m ρ c (Proc.devRef .tc main_v1) : Cert.Spec.Srd.Idx → EReal) = launched m c main_arg1 :=
  (leave_in 4 launch4 (Wpre4 m ρ) c 0 rfl rfl).trans (chain_x1_pre4 m ρ c)
theorem chain_x1_pre5 (c : Dev nD) : (Wpre5 m ρ c (Proc.devRef .tc main_v1) : Cert.Spec.Srd.Idx → EReal) = launched m c main_arg1 :=
  (host_keep hostOps5_writes _ main_v1 (by decide)).trans (chain_x1_post4 m ρ c)

/-- A projection region leaves in its output array the projection of what it found in its three input arrays. -/
theorem chain_proj0 (c : Dev nD) :
    (Wpost0 m ρ c (Proc.devRef .tc main_v4) : Cert.Spec.Srd.Idx → EReal) = Cert.Spec.lin (launched m c main_arg0) (launched m c main_arg2) (launched m c main_arg3) := by
  refine (leave_arr 0 launch0 (Wpre0 m ρ) c 3).trans ((lin0_arr (tcOf (Wpre0 m ρ)) c).trans ?_)
  show Cert.Spec.linRow (Wpre0 m ρ c (Proc.devRef .tc main_v0)) (Wpre0 m ρ c (Proc.devRef .tc main_v2))
    (Wpre0 m ρ c (Proc.devRef .tc main_v3)) = _
  rw [chain_x0_pre0, chain_W_pre0, chain_b_pre0, chain_linRow_reshape]

theorem chain_proj1 (c : Dev nD) :
    (Wpost1 m ρ c (Proc.devRef .tc main_v7) : Cert.Spec.Srd.Idx → EReal) = Cert.Spec.lin (launched m c main_arg0) (launched m c main_arg4) (launched m c main_arg5) := by
  refine (leave_arr 1 launch1 (Wpre1 m ρ) c 3).trans ((lin1_arr (tcOf (Wpre1 m ρ)) c).trans ?_)
  show Cert.Spec.linRow (Wpre1 m ρ c (Proc.devRef .tc main_v0)) (Wpre1 m ρ c (Proc.devRef .tc main_v5))
    (Wpre1 m ρ c (Proc.devRef .tc main_v6)) = _
  rw [chain_x0_pre1, chain_W_pre1, chain_b_pre1, chain_linRow_reshape]

theorem chain_proj2 (c : Dev nD) :
    (Wpost2 m ρ c (Proc.devRef .tc main_v10) : Cert.Spec.Srd.Idx → EReal) = Cert.Spec.lin (launched m c main_arg0) (launched m c main_arg6) (launched m c main_arg7) := by
  refine (leave_arr 2 launch2 (Wpre2 m ρ) c 3).trans ((lin2_arr (tcOf (Wpre2 m ρ)) c).trans ?_)
  show Cert.Spec.linRow (Wpre2 m ρ c (Proc.devRef .tc main_v0)) (Wpre2 m ρ c (Proc.devRef .tc main_v8))
    (Wpre2 m ρ c (Proc.devRef .tc main_v9)) = _
  rw [chain_x0_pre2, chain_W_pre2, chain_b_pre2, chain_linRow_reshape]

theorem chain_proj3 (c : Dev nD) :
    (Wpost3 m ρ c (Proc.devRef .tc main_v13) : Cert.Spec.Srd.Idx → EReal) = Cert.Spec.lin (launched m c main_arg1) (launched m c main_arg8) (launched m c main_arg9) := by
  refine (leave_arr 3 launch3 (Wpre3 m ρ) c 3).trans ((lin3_arr (tcOf (Wpre3 m ρ)) c).trans ?_)
  show Cert.Spec.linRow (Wpre3 m ρ c (Proc.devRef .tc main_v1)) (Wpre3 m ρ c (Proc.devRef .tc main_v11))
    (Wpre3 m ρ c (Proc.devRef .tc main_v12)) = _
  rw [chain_x1_pre3, chain_W_pre3, chain_b_pre3, chain_linRow_reshape]

theorem chain_proj4 (c : Dev nD) :
    (Wpost4 m ρ c (Proc.devRef .tc main_v16) : Cert.Spec.Srd.Idx → EReal) = Cert.Spec.lin (launched m c main_arg1) (launched m c main_arg10) (launched m c main_arg11) := by
  refine (leave_arr 4 launch4 (Wpre4 m ρ) c 3).trans ((lin4_arr (tcOf (Wpre4 m ρ)) c).trans ?_)
  show Cert.Spec.linRow (Wpre4 m ρ c (Proc.devRef .tc main_v1)) (Wpre4 m ρ c (Proc.devRef .tc main_v14))
    (Wpre4 m ρ c (Proc.devRef .tc main_v15)) = _
  rw [chain_x1_pre4, chain_W_pre4, chain_b_pre4, chain_linRow_reshape]

theorem chain_proj5 (c : Dev nD) :
    (Wpost5 m ρ c (Proc.devRef .tc main_v19) : Cert.Spec.Srd.Idx → EReal) = Cert.Spec.lin (launched m c main_arg1) (launched m c main_arg12) (launched m c main_arg13) := by
  refine (leave_arr 5 launch5 (Wpre5 m ρ) c 3).trans ((lin5_arr (tcOf (Wpre5 m ρ)) c).trans ?_)
  show Cert.Spec.linRow (Wpre5 m ρ c (Proc.devRef .tc main_v1)) (Wpre5 m ρ c (Proc.devRef .tc main_v17))
    (Wpre5 m ρ c (Proc.devRef .tc main_v18)) = _
  rw [chain_x1_pre5, chain_W_pre5, chain_b_pre5, chain_linRow_reshape]

/-- Nothing between a projection and the attention region that reads it writes the projection's output. -/
theorem chain_k1_at5 (c : Dev nD) :
    (Wpost5 m ρ c (Proc.devRef .tc main_v7) : Cert.Spec.Srd.Idx → EReal) = Cert.Spec.lin (launched m c main_arg0) (launched m c main_arg4) (launched m c main_arg5) :=
  (keep 5 hostOps5_writes (Wpost4 m ρ) c main_v7 (by decide) (by decide)).trans <| (keep 4 hostOps4_writes (Wpost3 m ρ) c main_v7 (by decide) (by decide)).trans <|
  (keep 3 hostOps3_writes (Wpost2 m ρ) c main_v7 (by decide) (by decide)).trans <| (keep 2 hostOps2_writes (Wpost1 m ρ) c main_v7 (by decide) (by decide)).trans
    (chain_proj1 m ρ c)
theorem chain_v1_at5 (c : Dev nD) :
    (Wpost5 m ρ c (Proc.devRef .tc main_v10) : Cert.Spec.Srd.Idx → EReal) = Cert.Spec.lin (launched m c main_arg0) (launched m c main_arg6) (launched m c main_arg7) :=
  (keep 5 hostOps5_writes (Wpost4 m ρ) c main_v10 (by decide) (by decide)).trans <| (keep 4 hostOps4_writes (Wpost3 m ρ) c main_v10 (by decide) (by decide)).trans <|
  (keep 3 hostOps3_writes (Wpost2 m ρ) c main_v10 (by decide) (by decide)).trans (chain_proj2 m ρ c)
theorem chain_q2_at5 (c : Dev nD) :
    (Wpost5 m ρ c (Proc.devRef .tc main_v13) : Cert.Spec.Srd.Idx → EReal) = Cert.Spec.lin (launched m c main_arg1) (launched m c main_arg8) (launched m c main_arg9) :=
  (keep 5 hostOps5_writes (Wpost4 m ρ) c main_v13 (by decide) (by decide)).trans <| (keep 4 hostOps4_writes (Wpost3 m ρ) c main_v13 (by decide) (by decide)).trans
    (chain_proj3 m ρ c)
theorem chain_q1_at6 (c : Dev nD) :
    (Wpost6 m ρ c (Proc.devRef .tc main_v4) : Cert.Spec.Srd.Idx → EReal) = Cert.Spec.lin (launched m c main_arg0) (launched m c main_arg2) (launched m c main_arg3) :=
  (leave_of_ne 6 (Wpost5 m ρ) c main_v4 (by decide)).trans <| (keep 5 hostOps5_writes (Wpost4 m ρ) c main_v4 (by decide) (by decide)).trans <|
  (keep 4 hostOps4_writes (Wpost3 m ρ) c main_v4 (by decide) (by decide)).trans <| (keep 3 hostOps3_writes (Wpost2 m ρ) c main_v4 (by decide) (by decide)).trans <|
  (keep 2 hostOps2_writes (Wpost1 m ρ) c main_v4 (by decide) (by decide)).trans <| (keep 1 hostOps1_writes (Wpost0 m ρ) c main_v4 (by decide) (by decide)).trans
    (chain_proj0 m ρ c)
theorem chain_k2_at6 (c : Dev nD) :
    (Wpost6 m ρ c (Proc.devRef .tc main_v16) : Cert.Spec.Srd.Idx → EReal) = Cert.Spec.lin (launched m c main_arg1) (launched m c main_arg10) (launched m c main_arg11) :=
  (leave_of_ne 6 (Wpost5 m ρ) c main_v16 (by decide)).trans <| (keep 5 hostOps5_writes (Wpost4 m ρ) c main_v16 (by decide) (by decide)).trans (chain_proj4 m ρ c)
theorem chain_v2_at6 (c : Dev nD) :
    (Wpost6 m ρ c (Proc.devRef .tc main_v19) : Cert.Spec.Srd.Idx → EReal) = Cert.Spec.lin (launched m c main_arg1) (launched m c main_arg12) (launched m c main_arg13) :=
  (leave_of_ne 6 (Wpost5 m ρ) c main_v19 (by decide)).trans (chain_proj5 m ρ c)

/-- The four results: region 6's two output arrays, which region 7 does not touch, and region 7's. -/
theorem res_probs1 (c : Dev nD) :
    Wpost7 m ρ c (Proc.devRef .tc main_v20_0)
      = Cert.Spec.gate (Cert.Spec.lin (m ((c : Thread nD τ).loc main_arg1)) (m ((c : Thread nD τ).loc main_arg8)) (m ((c : Thread nD τ).loc main_arg9)))
          (Cert.Spec.lin (m ((c : Thread nD τ).loc main_arg0)) (m ((c : Thread nD τ).loc main_arg4)) (m ((c : Thread nD τ).loc main_arg5))) := by
  refine (leave_of_ne 7 (Wpost6 m ρ) c main_v20_0 (by decide)).trans ((leave_arr 6 launch6 (Wpost5 m ρ) c 3).trans ((att6_probs (tcOf (Wpost5 m ρ)) c).trans ?_))
  show Cert.Spec.gate (Wpost5 m ρ c (Proc.devRef .tc main_v13)) (Wpost5 m ρ c (Proc.devRef .tc main_v7)) = _
  rw [chain_q2_at5, chain_k1_at5]

theorem res_ctx1 (c : Dev nD) :
    Wpost7 m ρ c (Proc.devRef .tc main_v20_1)
      = Cert.Spec.ctx (Cert.Spec.gate (Cert.Spec.lin (m ((c : Thread nD τ).loc main_arg1)) (m ((c : Thread nD τ).loc main_arg8)) (m ((c : Thread nD τ).loc main_arg9)))
          (Cert.Spec.lin (m ((c : Thread nD τ).loc main_arg0)) (m ((c : Thread nD τ).loc main_arg4)) (m ((c : Thread nD τ).loc main_arg5))))
          (Cert.Spec.lin (m ((c : Thread nD τ).loc main_arg0)) (m ((c : Thread nD τ).loc main_arg6)) (m ((c : Thread nD τ).loc main_arg7))) := by
  refine (leave_of_ne 7 (Wpost6 m ρ) c main_v20_1 (by decide)).trans ((leave_arr 6 launch6 (Wpost5 m ρ) c 4).trans ((att6_ctx (tcOf (Wpost5 m ρ)) c).trans ?_))
  show Cert.Spec.ctx (Cert.Spec.gate (Wpost5 m ρ c (Proc.devRef .tc main_v13)) (Wpost5 m ρ c (Proc.devRef .tc main_v7)))
    (Wpost5 m ρ c (Proc.devRef .tc main_v10)) = _
  rw [chain_q2_at5, chain_k1_at5, chain_v1_at5]

theorem res_probs2 (c : Dev nD) :
    Wpost7 m ρ c (Proc.devRef .tc main_v21_0)
      = Cert.Spec.gate (Cert.Spec.lin (m ((c : Thread nD τ).loc main_arg0)) (m ((c : Thread nD τ).loc main_arg2)) (m ((c : Thread nD τ).loc main_arg3)))
          (Cert.Spec.lin (m ((c : Thread nD τ).loc main_arg1)) (m ((c : Thread nD τ).loc main_arg10)) (m ((c : Thread nD τ).loc main_arg11))) := by
  refine (leave_arr 7 launch7 (Wpost6 m ρ) c 3).trans ((att7_probs (tcOf (Wpost6 m ρ)) c).trans ?_)
  show Cert.Spec.gate (Wpost6 m ρ c (Proc.devRef .tc main_v4)) (Wpost6 m ρ c (Proc.devRef .tc main_v16)) = _
  rw [chain_q1_at6, chain_k2_at6]

theorem res_ctx2 (c : Dev nD) :
    Wpost7 m ρ c (Proc.devRef .tc main_v21_1)
      = Cert.Spec.ctx (Cert.Spec.gate (Cert.Spec.lin (m ((c : Thread nD τ).loc main_arg0)) (m ((c : Thread nD τ).loc main_arg2)) (m ((c : Thread nD τ).loc main_arg3)))
          (Cert.Spec.lin (m ((c : Thread nD τ).loc main_arg1)) (m ((c : Thread nD τ).loc main_arg10)) (m ((c : Thread nD τ).loc main_arg11))))
          (Cert.Spec.lin (m ((c : Thread nD τ).loc main_arg1)) (m ((c : Thread nD τ).loc main_arg12)) (m ((c : Thread nD τ).loc main_arg13))) := by
  refine (leave_arr 7 launch7 (Wpost6 m ρ) c 4).trans ((att7_ctx (tcOf (Wpost6 m ρ)) c).trans ?_)
  show Cert.Spec.ctx (Cert.Spec.gate (Wpost6 m ρ c (Proc.devRef .tc main_v4)) (Wpost6 m ρ c (Proc.devRef .tc main_v16)))
    (Wpost6 m ρ c (Proc.devRef .tc main_v19)) = _
  rw [chain_q1_at6, chain_k2_at6, chain_v2_at6]

end Cert.KernelIdeal.Hand

end
-- ==== Proof.RefG.lean ====
import proofs.«106974_j644245095138_1_alg».proof.Proof.Gen.ReferenceIdeal.Read
import proofs.«106974_j644245095138_1_alg».proof.Proof.Spec
import Idealize.ShloMosaic.Lib.IdealHost
import Idealize.ShloMosaic.Lib.ValueIdx
import Idealize.ShloMosaic.PureOps.Ideal

noncomputable section

namespace Cert.RefStages

open Cert.ReferenceIdeal Cert.ReferenceIdeal.Read Idealize.ShloMosaic Idealize.ShloMosaic.ValueIdx

theorem lin_at (x : Spec.Srd.Idx → EReal) (W : Spec.Sw.Idx → EReal) (b : Spec.Sb.Idx → EReal) (i : Spec.Srd.Idx)
    (L : Fin 1024 → Spec.Srd.Idx) (R : Fin 1024 → Spec.Sw.Idx) (J : Spec.Sb.Idx)
    (hL : ∀ k, L k = ix2 (i 0) k) (hR : ∀ k, R k = ix2 k (i 1)) (hJ : J = ix1 (i 1)) :
    FloatOps.addf (F := Ideal) (φ := .f32) (∑ k : Fin 1024, x (L k) * W (R k)) (b J) = Spec.lin x W b i := by
  simp only [hL, hR, hJ, Spec.lin, Ideal.addf_def]
  rfl

theorem gate_at (q k : Spec.Srd.Idx → EReal) (i : Spec.Sqk.Idx) (D : EReal)
    (hD : D = ∑ d : Fin 1024, q (ix2 (i 0) d) * k (ix2 (i 1) d)) :
    FloatOps.hostDivf (F := Ideal) (φ := .f32) (FloatOps.ofBits .f32 0x3F800000#32)
        (FloatOps.addf (FloatOps.ofBits .f32 0x3F800000#32)
          (FloatOps.hostUnary .exp (FloatOps.hostNegf (FloatOps.mulf D (FloatOps.ofBits .f32 0x3D000000#32)))))
      = Spec.gate q k i := by
  subst hD
  simp only [Ideal.hostDivf_def, Ideal.addf_def, Ideal.hostUnary_exp_def, Ideal.hostNegf_def, Ideal.negf_def,
    Ideal.mulf_def, Ideal.ofBits_def, Ideal.ofBits_one_f32, Spec.gate, Spec.scale, Ideal.logistic]

theorem ctx_at (p : Spec.Sqk.Idx → EReal) (v : Spec.Srd.Idx → EReal) (i : Spec.Srd.Idx)
    (L : Fin 8192 → Spec.Sqk.Idx) (R : Fin 8192 → Spec.Srd.Idx)
    (hL : ∀ n, L n = ix2 (i 0) n) (hR : ∀ n, R n = ix2 n (i 1)) :
    (∑ n : Fin 8192, p (L n) * v (R n)) = Spec.ctx p v i := by
  simp only [hL, hR, Spec.ctx]
  rfl

/-- A projection of the reference read at an index: the sum over the contracted axis plus the bias at the column. -/
theorem ref_q1 (x0 : (⟨S8192x1024, .f32⟩ : BufTy).Contents (Elt Ideal)) (x2 : (⟨S1024x1024, .f32⟩ : BufTy).Contents (Elt Ideal)) (x3 : (⟨S1024, .f32⟩ : BufTy).Contents (Elt Ideal)) :
    val_main_v3 (F := Ideal) x0 x2 x3 = Spec.lin x0 x2 x3 := by
  funext i
  rw [val_main_v3_apply, val_main_v0_apply, val_main_v2_apply, val_main_v1_apply]
  exact lin_at x0 x2 x3 i _ _ _ (fun k => funext fun a => Fin.ext (by match a with | ⟨0, _⟩ => rfl | ⟨1, _⟩ => rfl)) (fun k => funext fun a => Fin.ext (by match a with | ⟨0, _⟩ => rfl | ⟨1, _⟩ => rfl))
    (funext fun a => Fin.ext (by match a with | ⟨0, _⟩ => rfl))

/-- The other five projections are the same function of their three arrays. -/
theorem ref_k1 (x0 : (⟨S8192x1024, .f32⟩ : BufTy).Contents (Elt Ideal)) (x4 : (⟨S1024x1024, .f32⟩ : BufTy).Contents (Elt Ideal)) (x5 : (⟨S1024, .f32⟩ : BufTy).Contents (Elt Ideal)) :
    val_main_v7 (F := Ideal) x0 x4 x5 = Spec.lin x0 x4 x5 := ref_q1 x0 x4 x5
theorem ref_v1 (x0 : (⟨S8192x1024, .f32⟩ : BufTy).Contents (Elt Ideal)) (x6 : (⟨S1024x1024, .f32⟩ : BufTy).Contents (Elt Ideal)) (x7 : (⟨S1024, .f32⟩ : BufTy).Contents (Elt Ideal)) :
    val_main_v11 (F := Ideal) x0 x6 x7 = Spec.lin x0 x6 x7 := ref_q1 x0 x6 x7
theorem ref_q2 (x1 : (⟨S8192x1024, .f32⟩ : BufTy).Contents (Elt Ideal)) (x8 : (⟨S1024x1024, .f32⟩ : BufTy).Contents (Elt Ideal)) (x9 : (⟨S1024, .f32⟩ : BufTy).Contents (Elt Ideal)) :
    val_main_v15 (F := Ideal) x1 x8 x9 = Spec.lin x1 x8 x9 := ref_q1 x1 x8 x9
theorem ref_k2 (x1 : (⟨S8192x1024, .f32⟩ : BufTy).Contents (Elt Ideal)) (x10 : (⟨S1024x1024, .f32⟩ : BufTy).Contents (Elt Ideal)) (x11 : (⟨S1024, .f32⟩ : BufTy).Contents (Elt Ideal)) :
    val_main_v19 (F := Ideal) x1 x10 x11 = Spec.lin x1 x10 x11 := ref_q1 x1 x10 x11
theorem ref_v2 (x1 : (⟨S8192x1024, .f32⟩ : BufTy).Contents (Elt Ideal)) (x12 : (⟨S1024x1024, .f32⟩ : BufTy).Contents (Elt Ideal)) (x13 : (⟨S1024, .f32⟩ : BufTy).Contents (Elt Ideal)) :
    val_main_v23 (F := Ideal) x1 x12 x13 = Spec.lin x1 x12 x13 := ref_q1 x1 x12 x13

/-- The first gate: the logistic of the scaled inner products of the second input's queries with the first input's keys. -/
theorem ref_probs1 (x0 x1 : (⟨S8192x1024, .f32⟩ : BufTy).Contents (Elt Ideal)) (x4 : (⟨S1024x1024, .f32⟩ : BufTy).Contents (Elt Ideal)) (x5 : (⟨S1024, .f32⟩ : BufTy).Contents (Elt Ideal)) (x8 : (⟨S1024x1024, .f32⟩ : BufTy).Contents (Elt Ideal)) (x9 : (⟨S1024, .f32⟩ : BufTy).Contents (Elt Ideal)) :
    val_main_v33 (F := Ideal) x0 x1 x4 x5 x8 x9 = Spec.gate (Spec.lin x1 x8 x9) (Spec.lin x0 x4 x5) := by
  funext i
  rw [val_main_v33_apply, val_main_v32_apply, val_main_cst_1_apply, val_main_v31_apply, val_main_v30_apply,
    val_main_cst_0_apply, val_main_v29_apply, val_main_v28_apply, val_main_v27_apply, val_main_v26_apply,
    val_main_cst_apply, val_main_v25_apply]
  refine gate_at _ _ i _ (Finset.sum_congr rfl fun d _ => ?_)
  rw [val_main_v24_apply, ref_q2, ref_k1]
  congr 2 <;> exact funext fun a => Fin.ext (by match a with | ⟨0, _⟩ => rfl | ⟨1, _⟩ => rfl)

theorem ref_ctx1 (x0 x1 : (⟨S8192x1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) (x8 : (⟨S1024x1024, .f32⟩ : BufTy).Contents (Elt Ideal)) (x9 : (⟨S1024, .f32⟩ : BufTy).Contents (Elt Ideal)) :
    val_main_v34 (F := Ideal) x0 x1 x4 x5 x6 x7 x8 x9
      = Spec.ctx (Spec.gate (Spec.lin x1 x8 x9) (Spec.lin x0 x4 x5)) (Spec.lin x0 x6 x7) := by
  funext i
  rw [val_main_v34_apply, ref_probs1, ref_v1]
  exact ctx_at _ _ i _ _ (fun n => funext fun a => Fin.ext (by match a with | ⟨0, _⟩ => rfl | ⟨1, _⟩ => rfl)) (fun n => funext fun a => Fin.ext (by match a with | ⟨0, _⟩ => rfl | ⟨1, _⟩ => rfl))

/-- The second direction is the first with the two inputs and their weights exchanged. -/
theorem ref_probs2 (x0 x1 : (⟨S8192x1024, .f32⟩ : BufTy).Contents (Elt Ideal)) (x2 : (⟨S1024x1024, .f32⟩ : BufTy).Contents (Elt Ideal)) (x3 : (⟨S1024, .f32⟩ : BufTy).Contents (Elt Ideal)) (x10 : (⟨S1024x1024, .f32⟩ : BufTy).Contents (Elt Ideal)) (x11 : (⟨S1024, .f32⟩ : BufTy).Contents (Elt Ideal)) :
    val_main_v44 (F := Ideal) x0 x1 x2 x3 x10 x11 = Spec.gate (Spec.lin x0 x2 x3) (Spec.lin x1 x10 x11) :=
  ref_probs1 x1 x0 x10 x11 x2 x3

theorem ref_ctx2 (x0 x1 : (⟨S8192x1024, .f32⟩ : BufTy).Contents (Elt Ideal)) (x2 : (⟨S1024x1024, .f32⟩ : BufTy).Contents (Elt Ideal)) (x3 : (⟨S1024, .f32⟩ : BufTy).Contents (Elt Ideal)) (x10 : (⟨S1024x1024, .f32⟩ : BufTy).Contents (Elt Ideal)) (x11 : (⟨S1024, .f32⟩ : BufTy).Contents (Elt Ideal)) (x12 : (⟨S1024x1024, .f32⟩ : BufTy).Contents (Elt Ideal)) (x13 : (⟨S1024, .f32⟩ : BufTy).Contents (Elt Ideal)) :
    val_main_v45 (F := Ideal) x0 x1 x2 x3 x10 x11 x12 x13
      = Spec.ctx (Spec.gate (Spec.lin x0 x2 x3) (Spec.lin x1 x10 x11)) (Spec.lin x1 x12 x13) :=
  ref_ctx1 x1 x0 x10 x11 x12 x13 x2 x3

end Cert.RefStages

end
-- ==== Proof.lean ====
import proofs.«106974_j644245095138_1_alg».proof.Defs
import proofs.«106974_j644245095138_1_alg».proof.Proof.Gen.Kernel
import proofs.«106974_j644245095138_1_alg».proof.Proof.Gen.KernelIdeal
import proofs.«106974_j644245095138_1_alg».proof.Proof.Gen.ReferenceIdeal
import proofs.«106974_j644245095138_1_alg».proof.Proof.Gen.Pre_finite_inputs
import proofs.«106974_j644245095138_1_alg».proof.Proof.Gen.ReferenceIdeal.Run
import proofs.«106974_j644245095138_1_alg».proof.Proof.Gen.ReferenceIdeal.Read
import proofs.«106974_j644245095138_1_alg».proof.Proof.K.Args
import proofs.«106974_j644245095138_1_alg».proof.Proof.KI.Args
import proofs.«106974_j644245095138_1_alg».proof.Proof.KI.Chain
import proofs.«106974_j644245095138_1_alg».proof.Proof.RefG
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2.2.2.2)
    (Cert.ReferenceIdeal.Value.run (F := Ideal) m ρ)

theorem preserves : Cert.preserves_Kernel_KernelIdeal := trivial

/-- Both programs end with the same four arrays: each side's results are the specification's functions of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.Wpost7 m ρ c (Proc.devRef .tc Cert.KernelIdeal.main_v21_1),
    fun c => Cert.KernelIdeal.Hand.Wpost7 m ρ c (Proc.devRef .tc Cert.KernelIdeal.main_v21_0),
    fun c => Cert.KernelIdeal.Hand.Wpost7 m ρ c (Proc.devRef .tc Cert.KernelIdeal.main_v20_1),
    fun c => Cert.KernelIdeal.Hand.Wpost7 m ρ c (Proc.devRef .tc Cert.KernelIdeal.main_v20_0), ?_, ?_⟩
  · exact (θ_run Cert.KernelIdeal.defs _ _).mono (fun r h c =>
      ⟨h c _ (Cert.KernelIdeal.Hand.mem_uc Cert.KernelIdeal.main_v21_1 (by decide)),
       h c _ (Cert.KernelIdeal.Hand.mem_uc Cert.KernelIdeal.main_v21_0 (by decide)),
       h c _ (Cert.KernelIdeal.Hand.mem_uc Cert.KernelIdeal.main_v20_1 (by decide)),
       h c _ (Cert.KernelIdeal.Hand.mem_uc Cert.KernelIdeal.main_v20_0 (by decide)),
       Cert.KernelIdeal.Hand.args_of_all m ρ c r.2.mem (h c)⟩) (Cert.KernelIdeal.Hand.run_all (F := Ideal) m ρ)
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13⟩ := hagree c
    refine ⟨?_, ?_, ?_, ?_, (h c).2.2.2.2⟩
    · refine (h c).1.trans ((Cert.ReferenceIdeal.Read.val_main_v45_eq _ _ _ _ _ _ _ _).trans ((Cert.RefStages.ref_ctx2 _ _ _ _ _ _ _ _).trans ?_))
      rw [e0, e1, e2, e3, e10, e11, e12, e13]
      exact (Cert.KernelIdeal.Hand.res_ctx2 m ρ c).symm
    · refine (h c).2.1.trans ((Cert.ReferenceIdeal.Read.val_main_v44_eq _ _ _ _ _ _).trans ((Cert.RefStages.ref_probs2 _ _ _ _ _ _).trans ?_))
      rw [e0, e1, e2, e3, e10, e11]
      exact (Cert.KernelIdeal.Hand.res_probs2 m ρ c).symm
    · refine (h c).2.2.1.trans ((Cert.ReferenceIdeal.Read.val_main_v34_eq _ _ _ _ _ _ _ _).trans ((Cert.RefStages.ref_ctx1 _ _ _ _ _ _ _ _).trans ?_))
      rw [e0, e1, e4, e5, e6, e7, e8, e9]
      exact (Cert.KernelIdeal.Hand.res_ctx1 m ρ c).symm
    · refine (h c).2.2.2.1.trans ((Cert.ReferenceIdeal.Read.val_main_v33_eq _ _ _ _ _ _).trans ((Cert.RefStages.ref_probs1 _ _ _ _ _ _).trans ?_))
      rw [e0, e1, e4, e5, e8, e9]
      exact (Cert.KernelIdeal.Hand.res_probs1 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
